-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x2 .f32) (main_arg15 : FVec F S2 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x2 .f32 := Host.absf main_arg14
  let main_cst_22 : FVec F S_ .f32 := constant S_ .f32 0x7F800000#32
  let main_v60 : FVec F S64x2 .f32 := broadcastInDim S64x2 ![] bcast_S_S64x2 main_cst_22
  let main_v61 : IVec S64x2 1 := cmpf .olt main_v59 main_v60
  let main_c_23 : IVec S_ 1 := constantI S_ 1 1#1
  let main_v62 : IVec S_ 1 := (fun x v => Host.reduce IntOp.andi x v reducesTo_S64x2_S_d0_1 h_S_) main_v61 main_c_23
  let main_v63 : IVec S_ 1 := andi main_v58 main_v62
  let main_v64 : FVec F S2 .f32 := Host.absf main_arg15
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg9 : FVec F S64x64 .f32) (main_arg10 : FVec F S64x64 .f32) (main_arg11 : FVec F S64 .f32) (main_arg12 : FVec F S64x64 .f32) (main_arg13 : FVec F S64 .f32) (main_arg14 : FVec F S64x2 .f32) (main_arg15 : FVec F S2 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_v48 main_v49 main_v50

def fn_part1 {F : FTy → Type} [FloatOps F] (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64 .f32) (main_arg14 : FVec F S64x2 .f32) (main_arg15 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x64 .f32) (main_arg1 : IVec S2x800000 32) (main_arg2 : IVec S50000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64 .f32) (main_arg14 : FVec F S64x2 .f32) (main_arg15 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩
abbrev S512 : Shape := ⟨1, ![512]⟩
abbrev S50000x1 : Shape := ⟨2, ![50000, 1]⟩
abbrev S1x512 : Shape := ⟨2, ![1, 512]⟩
abbrev S50176x64 : Shape := ⟨2, ![50176, 64]⟩
abbrev S50176 : Shape := ⟨1, ![50176]⟩
abbrev S1x50176 : Shape := ⟨2, ![1, 50176]⟩
abbrev S1x2 : Shape := ⟨2, ![1, 2]⟩
abbrev S512x2 : Shape := ⟨2, ![512, 2]⟩
abbrev S3584x64 : Shape := ⟨2, ![3584, 64]⟩
abbrev S1x3584 : Shape := ⟨2, ![1, 3584]⟩
abbrev S512x64 : Shape := ⟨2, ![512, 64]⟩
abbrev S512x3584 : Shape := ⟨2, ![512, 3584]⟩
abbrev S512x1 : Shape := ⟨2, ![512, 1]⟩
abbrev S500x2 : Shape := ⟨2, ![500, 2]⟩

abbrev nBuf : Space → Nat
  | .hbm => 83
  | .vmem => 38
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x2, .f32⟩
  | .hbm, ⟨15, _⟩ => ⟨S2, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S_, .f32⟩
  | .hbm, ⟨30, _⟩ => ⟨S50000x64, .f32⟩
  | .hbm, ⟨31, _⟩ => ⟨S800000x1, .i32⟩
  | .hbm, ⟨32, _⟩ => ⟨S50000x64, .f32⟩
  | .hbm, ⟨33, _⟩ => ⟨S1x64, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S_, .f32⟩
  | .hbm, ⟨66, _⟩ => ⟨S50000, .f32⟩
  | .hbm, ⟨67, _⟩ => ⟨S_, .f32⟩
  | .hbm, ⟨68, _⟩ => ⟨S512, .f32⟩
  | .hbm, ⟨69, _⟩ => ⟨S50000x1, .i32⟩
  | .hbm, ⟨70, _⟩ => ⟨S512, .f32⟩
  | .hbm, ⟨71, _⟩ => ⟨S1x512, .f32⟩
  | .hbm, ⟨72, _⟩ => ⟨S_, .i32⟩
  | .hbm, ⟨73, _⟩ => ⟨S_, .f32⟩
  | .hbm, ⟨74, _⟩ => ⟨S50176x64, .f32⟩
  | .hbm, ⟨75, _⟩ => ⟨S_, .i32⟩
  | .hbm, ⟨76, _⟩ => ⟨S_, .i32⟩
  | .hbm, ⟨77, _⟩ => ⟨S50176, .i32⟩
  | .hbm, ⟨78, _⟩ => ⟨S1x50176, .i32⟩
  | .hbm, ⟨79, _⟩ => ⟨S1x64, .f32⟩
  | .hbm, ⟨80, _⟩ => ⟨S1x2, .f32⟩
  | .hbm, ⟨81, _⟩ => ⟨S512x2, .f32⟩
  | .hbm, ⟨82, _⟩ => ⟨S500x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S3584x64, .f32⟩
  | .local _ .vmem, ⟨28, _⟩ => ⟨S3584x64, .f32⟩
  | .local _ .vmem, ⟨29, _⟩ => ⟨S1x3584, .i32⟩
  | .local _ .vmem, ⟨30, _⟩ => ⟨S1x3584, .i32⟩
  | .local _ .vmem, ⟨31, _⟩ => ⟨S1x512, .f32⟩
  | .local _ .vmem, ⟨32, _⟩ => ⟨S64x64, .f32⟩
  | .local _ .vmem, ⟨33, _⟩ => ⟨S1x64, .f32⟩
  | .local _ .vmem, ⟨34, _⟩ => ⟨S64x2, .f32⟩
  | .local _ .vmem, ⟨35, _⟩ => ⟨S1x2, .f32⟩
  | .local _ .vmem, ⟨36, _⟩ => ⟨S512x2, .f32⟩
  | .local _ .vmem, ⟨37, _⟩ => ⟨S512x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_call0_v0 : Ref sig .tc := ⟨.hbm, 73, rfl⟩
abbrev main_v45 : Ref sig .tc := ⟨.hbm, 74, rfl⟩
abbrev main_c_10 : Ref sig .tc := ⟨.hbm, 75, rfl⟩
abbrev main_call1_v0 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![14], ![false]⟩

def k3_cond2 (i : grid3.Coords) : BitVec 1 :=
  let arg0 : BitVec 32 := BitVec.ofNat 32 (i 0).val
  let c13_i32 : BitVec 32 := 13#32
  let v20 : BitVec 1 := Scalar.cmpi .eq arg0 c13_i32
  let v21 : BitVec 32 := Scalar.extui v20
  let c0_i32_8 : BitVec 32 := 0#32
  let v22 : BitVec 1 := Scalar.cmpi .ne v21 c0_i32_8
  v22

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S3584x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x3584 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S50000 : S_.BroadcastsInDim S50000 (![] : Fin 0 → Fin S50000.rank)
  bcast_S_S512 : S_.BroadcastsInDim S512 (![] : Fin 0 → Fin S512.rank)
  bcast_S50000_S50000x1_0 : S50000.BroadcastsInDim S50000x1 (![0] : Fin 1 → Fin S50000x1.rank)
  shapeCasts_S512_S1x512 : S512.ShapeCasts S1x512
  pads_S50000x64_S50176x64_01760_000 : S50000x64.Pads (![0, 0] : Fin 2 → Nat) ![176, 0] ![0, 0] S50176x64
  h_S_ : 0 < S_.numel
  pads_S50000_S50176_01760 : S50000.Pads (![0] : Fin 1 → Nat) ![176] ![0] S50176
  shapeCasts_S50176_S1x50176 : S50176.ShapeCasts S1x50176
  shapeCasts_S2_S1x2 : S2.ShapeCasts S1x2
  inb_S512x64_S512x64_0_0 : ∀ a, (![0, 0] : Fin 2 → Nat) a + S512x64.size a ≤ S512x64.size a
  h_S512x64 : 0 < S512x64.numel
  shapeCasts_S512x64_S512x64 : S512x64.ShapeCasts S512x64
  iota_S512x3584_d0_w32 : S512x3584.Iotas .tc 32 [0]
  inb_S1x3584_S1x3584_0_0 : ∀ a, (![0, 0] : Fin 2 → Nat) a + S1x3584.size a ≤ S1x3584.size a
  h_S1x3584 : 0 < S1x3584.numel
  shapeCasts_S1x3584_S1x3584 : S1x3584.ShapeCasts S1x3584
  broadcasts_S1x3584_S512x3584 : S1x3584.Broadcasts S512x3584
  natLt_1_32 : 1 < 32
  inb_S3584x64_S3584x64_0_0 : ∀ a, (![0, 0] : Fin 2 → Nat) a + S3584x64.size a ≤ S3584x64.size a
  h_S3584x64 : 0 < S3584x64.numel
  shapeCasts_S3584x64_S3584x64 : S3584x64.ShapeCasts S3584x64
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S1x512_p1_0_S512x1 : S1x512.Transposes [1, 0] S512x1
  broadcasts_S512x1_S512x64 : S512x1.Broadcasts S512x64
  broadcasts_S1x64_S512x64 : S1x64.Broadcasts S512x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  slices_S512x2_S500x2_0_0 : S512x2.Slices ![0, 0] S500x2
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S512_S50000x1_S50000_n_0_0_1_wf : ScatterDims.WF S512 S50000x1 S50000 [] [0] [0] 1
  dot_S512x3584_S3584x64_S512x64_1_0_0_1_n_n_wf : DotDims.WF S512x3584 S3584x64 S512x64 [1] [0] [0] [1] [] []
  dot_S512x64_S64x64_S512x64_1_0_0_1_n_n_wf : DotDims.WF S512x64 S64x64 S512x64 [1] [0] [0] [1] [] []
  dot_S512x64_S64x2_S512x2_1_0_0_1_n_n_wf : DotDims.WF S512x64 S64x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3584x64.size a ≤ S50176x64.size a
  hwx3_0 : ∀ i : grid3.Coords, EltTy.bits .f32 = 32 ∨ (Rect.block (s := S50176x64) S3584x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x3584.size a ≤ S1x50176.size a
  hwx3_1 : ∀ i : grid3.Coords, EltTy.bits .i32 = 32 ∨ (Rect.block (s := S1x50176) S1x3584.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x2.size a ≤ S64x2.size a
  hwx3_5 : ∀ i : grid3.Coords, EltTy.bits .f32 = 32 ∨ (Rect.block (s := S64x2) S64x2.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x2.size a ≤ S1x2.size a
  hwx3_6 : ∀ i : grid3.Coords, EltTy.bits .f32 = 32 ∨ (Rect.block (s := S1x2) S1x2.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x2.size a ≤ S512x2.size a
  hwx3_7 : ∀ i : grid3.Coords, EltTy.bits .f32 = 32 ∨ (Rect.block (s := S512x2) S512x2.size (cc3_transform_7 i) (hinb3_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x3584_S3584x64_S512x64_1_0_0_1_n_n : DotDims S512x3584 S3584x64 S512x64 where
  lhsContracting := [1]
  rhsContracting := [0]
  lhsNonContracting := [0]
  rhsNonContracting := [1]
  lhsBatch := []
  rhsBatch := []
  wf := dot_S512x3584_S3584x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v45) S3584x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S1x3584.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S64x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v49) S1x2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v50) S512x2.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S500x64 : Shape := ⟨2, ![500, 64]⟩
abbrev S50000x1 : Shape := ⟨2, ![50000, 1]⟩
abbrev S500 : Shape := ⟨1, ![500]⟩
abbrev S500x1 : Shape := ⟨2, ![500, 1]⟩
abbrev S500x2 : Shape := ⟨2, ![500, 2]⟩
abbrev S1x2 : Shape := ⟨2, ![1, 2]⟩

abbrev nBuf : Space → Nat
  | .hbm => 110
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x2, .f32⟩
  | .hbm, ⟨15, _⟩ => ⟨S2, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S_, .f32⟩
  | .hbm, ⟨30, _⟩ => ⟨S50000x64, .f32⟩
  | .hbm, ⟨31, _⟩ => ⟨S800000x1, .i32⟩
  | .hbm, ⟨32, _⟩ => ⟨S50000x64, .f32⟩
  | .hbm, ⟨33, _⟩ => ⟨S50000x64, .f32⟩
  | .hbm, ⟨34, _⟩ => ⟨S50000x64, .f32⟩
  | .hbm, ⟨35, _⟩ => ⟨S50000x64, .f32⟩
  | .hbm, ⟨36, _⟩ => ⟨S1x64, .f32⟩
  | .hbm, ⟨37, _⟩ => ⟨S50000x64, .f32⟩
  | .hbm, ⟨38, _⟩ => ⟨S50000x64, .f32⟩
  | .hbm, ⟨39, _⟩ => ⟨S_, .f32⟩
  | .hbm, ⟨40, _⟩ => ⟨S50000x64, .f32⟩
  | .hbm, ⟨41, _⟩ => ⟨S50000x64, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S50000x64, .f32⟩
  | .hbm, ⟨56, _⟩ => ⟨S50000x64, .f32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x64, .f32⟩
  | .hbm, ⟨61, _⟩ => ⟨S_, .f32⟩
  | .hbm, ⟨62, _⟩ => ⟨S50000x64, .f32⟩
  | .hbm, ⟨63, _⟩ => ⟨S50000x64, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x64, .f32⟩
  | .hbm, ⟨73, _⟩ => ⟨S_, .f32⟩
  | .hbm, ⟨74, _⟩ => ⟨S50000x64, .f32⟩
  | .hbm, ⟨75, _⟩ => ⟨S800000x1, .i32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S1x64, .f32⟩
  | .hbm, ⟨81, _⟩ => ⟨S50000x64, .f32⟩
  | .hbm, ⟨82, _⟩ => ⟨S50000x64, .f32⟩
  | .hbm, ⟨83, _⟩ => ⟨S_, .f32⟩
  | .hbm, ⟨84, _⟩ => ⟨S50000x64, .f32⟩
  | .hbm, ⟨85, _⟩ => ⟨S50000x64, .f32⟩
  | .hbm, ⟨86, _⟩ => ⟨S_, .f32⟩
  | .hbm, ⟨87, _⟩ => ⟨S500x64, .f32⟩
  | .hbm, ⟨88, _⟩ => ⟨S50000x1, .i32⟩
  | .hbm, ⟨89, _⟩ => ⟨S500x64, .f32⟩
  | .hbm, ⟨90, _⟩ => ⟨S_, .f32⟩
  | .hbm, ⟨91, _⟩ => ⟨S50000, .f32⟩
  | .hbm, ⟨92, _⟩ => ⟨S_, .f32⟩
  | .hbm, ⟨93, _⟩ => ⟨S500, .f32⟩
  | .hbm, ⟨94, _⟩ => ⟨S50000x1, .i32⟩
  | .hbm, ⟨95, _⟩ => ⟨S500, .f32⟩
  | .hbm, ⟨96, _⟩ => ⟨S_, .f32⟩
  | .hbm, ⟨97, _⟩ => ⟨S500, .f32⟩
  | .hbm, ⟨98, _⟩ => ⟨S500, .f32⟩
  | .hbm, ⟨99, _⟩ => ⟨S500x1, .f32⟩
  | .hbm, ⟨100, _⟩ => ⟨S500x64, .f32⟩
  | .hbm, ⟨101, _⟩ => ⟨S500x64, .f32⟩
  | .hbm, ⟨102, _⟩ => ⟨S500x64, .f32⟩
  | .hbm, ⟨103, _⟩ => ⟨S1x64, .f32⟩
  | .hbm, ⟨104, _⟩ => ⟨S500x64, .f32⟩
  | .hbm, ⟨105, _⟩ => ⟨S500x64, .f32⟩
  | .hbm, ⟨106, _⟩ => ⟨S500x2, .f32⟩
  | .hbm, ⟨107, _⟩ => ⟨S1x2, .f32⟩
  | .hbm, ⟨108, _⟩ => ⟨S500x2, .f32⟩
  | .hbm, ⟨109, _⟩ => ⟨S500x2, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call0_cst : Ref sig .tc := ⟨.hbm, 39, rfl⟩
abbrev main_call0_v0 : Ref sig .tc := ⟨.hbm, 40, rfl⟩
abbrev main_v20 : Ref sig .tc := ⟨.hbm, 41, rfl⟩
abbrev main_c_1 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call1_cst : Ref sig .tc := ⟨.hbm, 61, rfl⟩
abbrev main_call1_v0 : Ref sig .tc := ⟨.hbm, 62, rfl⟩
abbrev main_v37 : Ref sig .tc := ⟨.hbm, 63, rfl⟩
abbrev main_c_4 : Ref sig .tc := ⟨.hbm, 64, rfl⟩
abbrev main_v38 : Ref sig .tc := ⟨.hbm, 65, rfl⟩
abbrev main_v39 : Ref sig .tc := ⟨.hbm, 66, rfl⟩
abbrev main_c_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call2_cst : Ref sig .tc := ⟨.hbm, 83, rfl⟩
abbrev main_call2_v0 : Ref sig .tc := ⟨.hbm, 84, rfl⟩
abbrev main_v54 : Ref sig .tc := ⟨.hbm, 85, rfl⟩
abbrev main_cst_7 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_8 : Ref sig .tc := ⟨.hbm, 90, rfl⟩
abbrev main_v58 : Ref sig .tc := ⟨.hbm, 91, rfl⟩
abbrev main_cst_9 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_10 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S500x64 : S_.BroadcastsInDim S500x64 (![] : Fin 0 → Fin S500x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S500 : S_.BroadcastsInDim S500 (![] : Fin 0 → Fin S500.rank)
  bcast_S500_S500x1_0 : S500.BroadcastsInDim S500x1 (![0] : Fin 1 → Fin S500x1.rank)
  bcast_S500x1_S500x64_0_1 : S500x1.BroadcastsInDim S500x64 (![0, 1] : Fin 2 → Fin S500x64.rank)
  bcast_S1x64_S500x64_0_1 : S1x64.BroadcastsInDim S500x64 (![0, 1] : Fin 2 → Fin S500x64.rank)
  bcast_S2_S1x2_1 : S2.BroadcastsInDim S1x2 (![1] : Fin 1 → Fin S1x2.rank)
  bcast_S1x2_S500x2_0_1 : S1x2.BroadcastsInDim S500x2 (![0, 1] : Fin 2 → Fin S500x2.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1
  dot_S500x64_S64x64_S500x64_1_0_0_1_n_n_wf : DotDims.WF S500x64 S64x64 S500x64 [1] [0] [0] [1] [] []
  dot_S500x64_S64x2_S500x2_1_0_0_1_n_n_wf : DotDims.WF S500x64 S64x2 S500x2 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x64_S64x64_S500x64_1_0_0_1_n_n : DotDims S500x64 S64x64 S500x64 where
  lhsContracting := [1]
  rhsContracting := [0]
  lhsNonContracting := [0]
  rhsNonContracting := [1]
  lhsBatch := []
  rhsBatch := []
  wf := dot_S500x64_S64x64_S500x64_1_0_0_1_n_n_wf
def dot_S500x64_S64x2_S500x2_1_0_0_1_n_n : DotDims S500x64 S64x2 S500x2 where
  lhsContracting := [1]
  rhsContracting := [0]
  lhsNonContracting := [0]
  rhsNonContracting := [1]
  lhsBatch := []
  rhsBatch := []
  wf := dot_S500x64_S64x2_S500x2_1_0_0_1_n_n_wf

class Facts : Prop extends Facts₀ where

variable [Facts]
-- ==== Proof.Same.lean ====
import proofs.«424059_j74191265071300_3_alg».proof.Kernel
import proofs.«424059_j74191265071300_3_alg».proof.KernelIdeal

set_option maxRecDepth 16384

noncomputable section

namespace Cert.Kernel

open Idealize.ShloMosaic Idealize.ShloMosaic.TcCoe Idealize.SL.Sem

variable {F : FTy → Type} [FloatOps F] [Facts] [Cert.KernelIdeal.Facts]

set_option maxHeartbeats 1000000 in
/-- The two printed programs are one text: label by label, their kernels are the same term. -/
theorem defs₀_eq : defs₀ (F := F) = Cert.KernelIdeal.defs₀ := by
  unfold defs₀ Cert.KernelIdeal.defs₀
  refine congrArg Defs.onTc (funext fun l => funext fun a => ?_)
  match l, a with
  | 0, _ => rfl
  | 1, _ => rfl
  | 2, _ => rfl
  | 3, _ => rfl

set_option maxHeartbeats 1000000 in
theorem defs_eq : defs (F := F) = Cert.KernelIdeal.defs := congrArg (Pipeline.defs _) defs₀_eq

set_option maxHeartbeats 1000000 in
/-- Hence what holds of every run of one program holds of every run of the other. -/
theorem run_iff (st) (post) : θ_run (defs (F := F)) (onTc (τ := τ) (main (F := F))) st post
    ↔ θ_run (Cert.KernelIdeal.defs (F := F)) (onTc (τ := Cert.KernelIdeal.τ) (Cert.KernelIdeal.main (F := F))) st post := by
  rw [defs_eq]; exact Iff.rfl

end Cert.Kernel

end
-- ==== Proof.KiConv0.lean ====
import proofs.«424059_j74191265071300_3_alg».proof.Proof.Gen.KernelIdeal.Launch
import proofs.«424059_j74191265071300_3_alg».proof.Proof.Gen.KernelIdeal.Skeleton
import proofs.«424059_j74191265071300_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x64 := Rect.unit (s := S5000x64) ![0, 0] S5000x64.size inb_S5000x64_S5000x64_0_0

abbrev r0_w : Rect S64x64 := Rect.unit (s := S64x64) ![0, 0] S64x64.size inb_S64x64_S64x64_0_0

abbrev r0_b : Rect S1x64 := Rect.unit (s := S1x64) ![0, 0] S1x64.size inb_S1x64_S1x64_0_0

def out0_5 (x0 x1 : Vec F S5000x64 .f32) (x2 x3 : Vec F S64x64 .f32) (x4 : Vec F S1x64 .f32) : Vec F S5000x64 .f32 :=
  View.canon [⟨r0_0, k0_pay1 (View.ld x0 r0_0) (View.ld x1 r0_0) (View.ld x2 r0_w) (View.ld x3 r0_w) (View.ld x4 r0_b)⟩]

theorem cover0_5 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

set_option maxHeartbeats 1000000 in

theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (x0 x1 : Vec F S5000x64 .f32) (x2 x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__graphconv_kernel i arg1 harg1 arg2 harg2 arg3 harg3 arg4 harg4 arg5 harg5 arg6 harg6) K := by
  simp only [cc0__graphconv_kernel_eq_skeleton]; unfold cc0__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  iframe H0 H1 H2 H3 H4
  isplitl [H5]; · iexists _; iexact H5
  iintro ⟨H0, H1, H2, H3, H4, H5⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KiConv1.lean ====
import proofs.«424059_j74191265071300_3_alg».proof.Proof.Gen.KernelIdeal.Launch
import proofs.«424059_j74191265071300_3_alg».proof.Proof.Gen.KernelIdeal.Skeleton
import proofs.«424059_j74191265071300_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x64 := Rect.unit (s := S5000x64) ![0, 0] S5000x64.size inb_S5000x64_S5000x64_0_0

abbrev r1_w : Rect S64x64 := Rect.unit (s := S64x64) ![0, 0] S64x64.size inb_S64x64_S64x64_0_0

abbrev r1_b : Rect S1x64 := Rect.unit (s := S1x64) ![0, 0] S1x64.size inb_S1x64_S1x64_0_0

def out1_5 (x0 x1 : Vec F S5000x64 .f32) (x2 x3 : Vec F S64x64 .f32) (x4 : Vec F S1x64 .f32) : Vec F S5000x64 .f32 :=
  View.canon [⟨r1_0, k1_pay1 (View.ld x0 r1_0) (View.ld x1 r1_0) (View.ld x2 r1_w) (View.ld x3 r1_w) (View.ld x4 r1_b)⟩]

theorem cover1_5 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

set_option maxHeartbeats 1000000 in

theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (x0 x1 : Vec F S5000x64 .f32) (x2 x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__graphconv_kernel i arg1 harg1 arg2 harg2 arg3 harg3 arg4 harg4 arg5 harg5 arg6 harg6) K := by
  simp only [cc1__graphconv_kernel_eq_skeleton]; unfold cc1__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KiConv2.lean ====
import proofs.«424059_j74191265071300_3_alg».proof.Proof.Gen.KernelIdeal.Launch
import proofs.«424059_j74191265071300_3_alg».proof.Proof.Gen.KernelIdeal.Skeleton
import proofs.«424059_j74191265071300_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x64 := Rect.unit (s := S5000x64) ![0, 0] S5000x64.size inb_S5000x64_S5000x64_0_0

abbrev r2_w : Rect S64x64 := Rect.unit (s := S64x64) ![0, 0] S64x64.size inb_S64x64_S64x64_0_0

abbrev r2_b : Rect S1x64 := Rect.unit (s := S1x64) ![0, 0] S1x64.size inb_S1x64_S1x64_0_0

def out2_5 (x0 x1 : Vec F S5000x64 .f32) (x2 x3 : Vec F S64x64 .f32) (x4 : Vec F S1x64 .f32) : Vec F S5000x64 .f32 :=
  View.canon [⟨r2_0, k2_pay1 (View.ld x0 r2_0) (View.ld x1 r2_0) (View.ld x2 r2_w) (View.ld x3 r2_w) (View.ld x4 r2_b)⟩]

theorem cover2_5 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

set_option maxHeartbeats 1000000 in

theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (x0 x1 : Vec F S5000x64 .f32) (x2 x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__graphconv_kernel i arg1 harg1 arg2 harg2 arg3 harg3 arg4 harg4 arg5 harg5 arg6 harg6) K := by
  simp only [cc2__graphconv_kernel_eq_skeleton]; unfold cc2__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  iframe H0 H1 H2 H3 H4
  isplitl [H5]; · iexists _; iexact H5
  iintro ⟨H0, H1, H2, H3, H4, H5⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KiPoolBase.lean ====
import proofs.«424059_j74191265071300_3_alg».proof.Proof.Gen.KernelIdeal.Launch
import proofs.«424059_j74191265071300_3_alg».proof.Proof.Gen.KernelIdeal.Skeleton
import proofs.«424059_j74191265071300_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 14 = 0 :=
  (by decide +kernel : ∀ t : Fin grid3.N, cond3_0 (grid3.coords t) ↔ t.val % 14 = 0)

abbrev cond3_1 (i : grid3.Coords) : Prop := k3_cond2 i = 1#1

theorem hcond3_1 : ∀ t : Fin cfg3.N, cond3_1 (grid3.coords t) ↔ t.val % 14 = 13 :=
  (by decide +kernel : ∀ t : Fin grid3.N, cond3_1 (grid3.coords t) ↔ t.val % 14 = 13)

theorem liveAt3_0 : ∀ t : Fin cfg3.N, cfg3.idle 0 (grid3.coords t) = false := by decide +kernel

theorem liveAt3_1 : ∀ t : Fin cfg3.N, cfg3.idle 1 (grid3.coords t) = false := by decide +kernel

theorem liveAt3_2 : ∀ t : Fin cfg3.N, cfg3.idle 2 (grid3.coords t) = false := by decide +kernel

theorem liveAt3_3 : ∀ t : Fin cfg3.N, cfg3.idle 3 (grid3.coords t) = false := by decide +kernel

theorem liveAt3_4 : ∀ t : Fin cfg3.N, cfg3.idle 4 (grid3.coords t) = false := by decide +kernel

theorem liveAt3_5 : ∀ t : Fin cfg3.N, cfg3.idle 5 (grid3.coords t) = false := by decide +kernel

theorem liveAt3_6 : ∀ t : Fin cfg3.N, cfg3.idle 6 (grid3.coords t) = false := by decide +kernel

theorem idleAt3_7_A : ∀ t : Fin cfg3.N, cond3_0 (grid3.coords t) → ¬cond3_1 (grid3.coords t) → cfg3.idle 7 (grid3.coords t) = true := by decide +kernel

theorem noFlush3_7_A : ∀ t : Fin cfg3.N, cond3_0 (grid3.coords t) → ¬cond3_1 (grid3.coords t) → (cfg3.win 7).flush t = false := by decide +kernel

theorem idleAt3_7_B : ∀ t : Fin cfg3.N, ¬cond3_0 (grid3.coords t) → ¬cond3_1 (grid3.coords t) → cfg3.idle 7 (grid3.coords t) = true := by decide +kernel

theorem noFlush3_7_B : ∀ t : Fin cfg3.N, ¬cond3_0 (grid3.coords t) → ¬cond3_1 (grid3.coords t) → (cfg3.win 7).flush t = false := by decide +kernel

theorem liveAt3_7_C : ∀ t : Fin cfg3.N, ¬cond3_0 (grid3.coords t) → cond3_1 (grid3.coords t) → cfg3.idle 7 (grid3.coords t) = false := by decide +kernel

abbrev ms3_0 (t : Fin cfg3.N) : Memref sig .tc .vmem S3584x64 .f32 := win3_0.stage (cfg3.slots t 0)
abbrev ms3_1 (t : Fin cfg3.N) : Memref sig .tc .vmem S1x3584 .i32 := win3_1.stage (cfg3.slots t 1)
abbrev ms3_2 (t : Fin cfg3.N) : Memref sig .tc .vmem S1x512 .f32 := win3_2.stage (cfg3.slots t 2)
abbrev ms3_3 (t : Fin cfg3.N) : Memref sig .tc .vmem S64x64 .f32 := win3_3.stage (cfg3.slots t 3)
abbrev ms3_4 (t : Fin cfg3.N) : Memref sig .tc .vmem S1x64 .f32 := win3_4.stage (cfg3.slots t 4)
abbrev ms3_5 (t : Fin cfg3.N) : Memref sig .tc .vmem S64x2 .f32 := win3_5.stage (cfg3.slots t 5)
abbrev ms3_6 (t : Fin cfg3.N) : Memref sig .tc .vmem S1x2 .f32 := win3_6.stage (cfg3.slots t 6)
abbrev ms3_7 (t : Fin cfg3.N) : Memref sig .tc .vmem S512x2 .f32 := win3_7.stage (cfg3.slots t 7)
abbrev scM3_0 : Memref sig .tc .vmem S512x64 .f32 := Memref.whole cc3_scratch0

theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.KernelIdeal.Frame

end
-- ==== Proof.KiPoolRunA.lean ====
import proofs.«424059_j74191265071300_3_alg».proof.Proof.KiPoolBase

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun3_A (c : Dev nD) (i : grid3.Coords) (arg1 : Memref sig .tc .vmem S3584x64 .f32) (harg1 : arg1.IsWhole) (arg2 : Memref sig .tc .vmem S1x3584 .i32) (harg2 : arg2.IsWhole) (arg3 : Memref sig .tc .vmem S1x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S512x2 .f32) (harg8 : arg8.IsWhole) (arg9 : Memref sig .tc .vmem S512x64 .f32) (harg9 : arg9.IsWhole) (hc0 : cond3_0 i) (hc1 : ¬cond3_1 i)
    (x0 : Vec F S3584x64 .f32) (x1 : Vec F S1x3584 .i32) (x2 : Vec F S1x512 .f32) (x3 : Vec F S64x64 .f32) (x4 : Vec F S1x64 .f32) (x5 : Vec F S64x2 .f32) (x6 : Vec F S1x2 .f32) :
    Σ' (L7 : List (View.Piece (Elt F) S512x2 .f32)), { LS0 : List (View.Piece (Elt F) S512x64 .f32) //
      ∀ (xi7 : Vec F S512x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc3__pool_head_kernel i arg1 harg1 arg2 harg2 arg3 harg3 arg4 harg4 arg5 harg5 arg6 harg6 arg7 harg7 arg8 harg8 arg9 harg9) K } := by
  refine ⟨[], ?_, fun xi7 E K => ?run⟩
  case run =>
    simp only [cc3__pool_head_kernel_eq_skeleton]; unfold cc3__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

end Cert.KernelIdeal.Frame

end
-- ==== Proof.KiPoolRunB.lean ====
import proofs.«424059_j74191265071300_3_alg».proof.Proof.KiPoolRunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun3_B (c : Dev nD) (i : grid3.Coords) (arg1 : Memref sig .tc .vmem S3584x64 .f32) (harg1 : arg1.IsWhole) (arg2 : Memref sig .tc .vmem S1x3584 .i32) (harg2 : arg2.IsWhole) (arg3 : Memref sig .tc .vmem S1x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S512x2 .f32) (harg8 : arg8.IsWhole) (arg9 : Memref sig .tc .vmem S512x64 .f32) (harg9 : arg9.IsWhole) (hc0 : ¬cond3_0 i) (hc1 : ¬cond3_1 i)
    (x0 : Vec F S3584x64 .f32) (x1 : Vec F S1x3584 .i32) (x2 : Vec F S1x512 .f32) (x3 : Vec F S64x64 .f32) (x4 : Vec F S1x64 .f32) (x5 : Vec F S64x2 .f32) (x6 : Vec F S1x2 .f32) (xs0 : Vec F S512x64 .f32) :
    Σ' (L7 : List (View.Piece (Elt F) S512x2 .f32)), { LS0 : List (View.Piece (Elt F) S512x64 .f32) //
      ∀ (xi7 : Vec F S512x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc3__pool_head_kernel i arg1 harg1 arg2 harg2 arg3 harg3 arg4 harg4 arg5 harg5 arg6 harg6 arg7 harg7 arg8 harg8 arg9 harg9) K } := by
  refine ⟨[], ?_, fun xi7 E K => ?run⟩
  case run =>
    simp only [cc3__pool_head_kernel_eq_skeleton]; unfold cc3__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

end Cert.KernelIdeal.Frame

end
-- ==== Proof.KiPoolRunC.lean ====
import proofs.«424059_j74191265071300_3_alg».proof.Proof.KiPoolRunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in

noncomputable def kernelRun3_C (c : Dev nD) (i : grid3.Coords) (arg1 : Memref sig .tc .vmem S3584x64 .f32) (harg1 : arg1.IsWhole) (arg2 : Memref sig .tc .vmem S1x3584 .i32) (harg2 : arg2.IsWhole) (arg3 : Memref sig .tc .vmem S1x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S512x2 .f32) (harg8 : arg8.IsWhole) (arg9 : Memref sig .tc .vmem S512x64 .f32) (harg9 : arg9.IsWhole) (hc0 : ¬cond3_0 i) (hc1 : cond3_1 i)
    (x0 : Vec F S3584x64 .f32) (x1 : Vec F S1x3584 .i32) (x2 : Vec F S1x512 .f32) (x3 : Vec F S64x64 .f32) (x4 : Vec F S1x64 .f32) (x5 : Vec F S64x2 .f32) (x6 : Vec F S1x2 .f32) (xs0 : Vec F S512x64 .f32) :
    Σ' (L7 : List (View.Piece (Elt F) S512x2 .f32)), { LS0 : List (View.Piece (Elt F) S512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc3__pool_head_kernel i arg1 harg1 arg2 harg2 arg3 harg3 arg4 harg4 arg5 harg5 arg6 harg6 arg7 harg7 arg8 harg8 arg9 harg9) K } := by
  refine ⟨?_, ?_, fun E K => ?run⟩
  case run =>
    simp only [cc3__pool_head_kernel_eq_skeleton]; unfold cc3__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS0

end Cert.KernelIdeal.Frame

end
-- ==== Proof.KiPool.lean ====
import proofs.«424059_j74191265071300_3_alg».proof.Proof.KiPoolRunC
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz3 : (![0, 0] : Fin 2 → Nat) = fun _ => 0 := funext fun a => by fin_cases a <;> rfl

/-- The accumulator after position `n`: block `n`'s membership product added to what the position before left, from zero. -/
def acc3 (c : Dev nD) : (n : ℕ) → n < cfg3.N → Vec F S512x64 .f32
  | 0, h => k3_pay2 (iblk3 V c 1 ⟨0, h⟩) (iblk3 V c 0 ⟨0, h⟩) (k3_pay1 (F := F))
  | n + 1, h => k3_pay2 (iblk3 V c 1 ⟨n + 1, h⟩) (iblk3 V c 0 ⟨n + 1, h⟩) (acc3 c n (Nat.lt_of_succ_lt h))

theorem acc3_first (c : Dev nD) (t : Fin cfg3.N) (hz : t.val = 0) :
    acc3 V c t.val t.isLt = k3_pay2 (iblk3 V c 1 t) (iblk3 V c 0 t) (k3_pay1 (F := F)) := by
  obtain ⟨n, hn⟩ := t
  obtain rfl : n = 0 := hz
  rfl

theorem acc3_pos (c : Dev nD) (t : Fin cfg3.N) (hz : t.val ≠ 0) :
    acc3 V c t.val t.isLt
      = k3_pay2 (iblk3 V c 1 t) (iblk3 V c 0 t) (acc3 V c (t.val - 1) (Nat.lt_of_le_of_lt (Nat.sub_le _ _) t.isLt)) := by
  obtain ⟨n, hn⟩ := t
  cases n with
  | zero => exact absurd rfl hz
  | succ n => rfl

/-- The output block the last point stores: the head on the mean of the accumulated sums. -/
def fin3 (c : Dev nD) (t : Fin cfg3.N) : Vec F S512x2 .f32 :=
  k3_pay3 (iblk3 V c 2 t) (acc3 V c t.val t.isLt) (iblk3 V c 3 t) (iblk3 V c 4 t) (iblk3 V c 5 t) (iblk3 V c 6 t)

section
variable (c : Dev nD) (i : grid3.Coords) (arg1 : Memref sig .tc .vmem S3584x64 .f32) (harg1 : arg1.IsWhole) (arg2 : Memref sig .tc .vmem S1x3584 .i32) (harg2 : arg2.IsWhole) (arg3 : Memref sig .tc .vmem S1x512 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S512x2 .f32) (harg8 : arg8.IsWhole) (arg9 : Memref sig .tc .vmem S512x64 .f32) (harg9 : arg9.IsWhole)

section
variable (hc0 : cond3_0 i) (hc1 : ¬cond3_1 i)
    (x0 : Vec F S3584x64 .f32) (x1 : Vec F S1x3584 .i32) (x2 : Vec F S1x512 .f32) (x3 : Vec F S64x64 .f32) (x4 : Vec F S1x64 .f32) (x5 : Vec F S64x2 .f32) (x6 : Vec F S1x2 .f32)

theorem scover3_A_0 (y : S512x64.Idx) :
    ∃ pc ∈ (kernelRun3_A c i arg1 harg1 arg2 harg2 arg3 harg3 arg4 harg4 arg5 harg5 arg6 harg6 arg7 harg7 arg8 harg8 arg9 harg9 hc0 hc1 x0 x1 x2 x3 x4 x5 x6).2.1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3 x4 x5 x6).2.1 S512x64.size (by sl_kernel_rfl) y

theorem scanon3_A : View.canon (kernelRun3_A c i arg1 harg1 arg2 harg2 arg3 harg3 arg4 harg4 arg5 harg5 arg6 harg6 arg7 harg7 arg8 harg8 arg9 harg9 hc0 hc1 x0 x1 x2 x3 x4 x5 x6).2.1 = k3_pay2 x1 x0 (k3_pay1 (F := F)) := by
  unfold kernelRun3_A
  dsimp only
  sl_unfold_words
  rw [View.canon_cons_unit_zero (S := S512x64) hz3, View.readCov_unit_zero (S := S512x64) _ hz3]
  simp only [View.readAt_eq_ld, harg1.read_unread, harg2.read_unread, harg3.read_unread, harg4.read_unread, harg5.read_unread, harg6.read_unread, harg7.read_unread, harg8.read_unread, harg9.read_unread, View.ld_unit_zero (S := S3584x64) hz3, View.ld_unit_zero (S := S1x3584) hz3, View.ld_unit_zero (S := S1x512) hz3, View.ld_unit_zero (S := S64x64) hz3, View.ld_unit_zero (S := S1x64) hz3, View.ld_unit_zero (S := S64x2) hz3, View.ld_unit_zero (S := S1x2) hz3, View.ld_unit_zero (S := S512x2) hz3, View.ld_unit_zero (S := S512x64) hz3]

end

section
variable (hc0 : ¬cond3_0 i) (hc1 : ¬cond3_1 i)
    (x0 : Vec F S3584x64 .f32) (x1 : Vec F S1x3584 .i32) (x2 : Vec F S1x512 .f32) (x3 : Vec F S64x64 .f32) (x4 : Vec F S1x64 .f32) (x5 : Vec F S64x2 .f32) (x6 : Vec F S1x2 .f32) (xs0 : Vec F S512x64 .f32)

theorem scover3_B_0 (y : S512x64.Idx) :
    ∃ pc ∈ (kernelRun3_B c i arg1 harg1 arg2 harg2 arg3 harg3 arg4 harg4 arg5 harg5 arg6 harg6 arg7 harg7 arg8 harg8 arg9 harg9 hc0 hc1 x0 x1 x2 x3 x4 x5 x6 xs0).2.1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 x4 x5 x6 xs0).2.1 S512x64.size (by sl_kernel_rfl) y

theorem scanon3_B : View.canon (kernelRun3_B c i arg1 harg1 arg2 harg2 arg3 harg3 arg4 harg4 arg5 harg5 arg6 harg6 arg7 harg7 arg8 harg8 arg9 harg9 hc0 hc1 x0 x1 x2 x3 x4 x5 x6 xs0).2.1 = k3_pay2 x1 x0 xs0 := by
  unfold kernelRun3_B
  dsimp only
  rw [View.canon_unit_zero hz3]
  simp only [View.readAt_eq_ld, harg1.read_unread, harg2.read_unread, harg3.read_unread, harg4.read_unread, harg5.read_unread, harg6.read_unread, harg7.read_unread, harg8.read_unread, harg9.read_unread, View.ld_unit_zero (S := S3584x64) hz3, View.ld_unit_zero (S := S1x3584) hz3, View.ld_unit_zero (S := S1x512) hz3, View.ld_unit_zero (S := S64x64) hz3, View.ld_unit_zero (S := S1x64) hz3, View.ld_unit_zero (S := S64x2) hz3, View.ld_unit_zero (S := S1x2) hz3, View.ld_unit_zero (S := S512x2) hz3, View.ld_unit_zero (S := S512x64) hz3]

end

section
variable (hc0 : ¬cond3_0 i) (hc1 : cond3_1 i)
    (x0 : Vec F S3584x64 .f32) (x1 : Vec F S1x3584 .i32) (x2 : Vec F S1x512 .f32) (x3 : Vec F S64x64 .f32) (x4 : Vec F S1x64 .f32) (x5 : Vec F S64x2 .f32) (x6 : Vec F S1x2 .f32) (xs0 : Vec F S512x64 .f32)

theorem cover3_C_7 (y : S512x2.Idx) :
    ∃ pc ∈ (kernelRun3_C c i arg1 harg1 arg2 harg2 arg3 harg3 arg4 harg4 arg5 harg5 arg6 harg6 arg7 harg7 arg8 harg8 arg9 harg9 hc0 hc1 x0 x1 x2 x3 x4 x5 x6 xs0).1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 x5 x6 xs0).1 S512x2.size (by sl_kernel_rfl) y

theorem scover3_C_0 (y : S512x64.Idx) :
    ∃ pc ∈ (kernelRun3_C c i arg1 harg1 arg2 harg2 arg3 harg3 arg4 harg4 arg5 harg5 arg6 harg6 arg7 harg7 arg8 harg8 arg9 harg9 hc0 hc1 x0 x1 x2 x3 x4 x5 x6 xs0).2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 x5 x6 xs0).2.1 S512x64.size (by sl_kernel_rfl) y

theorem scanon3_C : View.canon (kernelRun3_C c i arg1 harg1 arg2 harg2 arg3 harg3 arg4 harg4 arg5 harg5 arg6 harg6 arg7 harg7 arg8 harg8 arg9 harg9 hc0 hc1 x0 x1 x2 x3 x4 x5 x6 xs0).2.1 = k3_pay2 x1 x0 xs0 := by
  unfold kernelRun3_C
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, View.ld_unit_zero (S := S3584x64) hz3, View.ld_unit_zero (S := S1x3584) hz3, View.ld_unit_zero (S := S1x512) hz3, View.ld_unit_zero (S := S64x64) hz3, View.ld_unit_zero (S := S1x64) hz3, View.ld_unit_zero (S := S64x2) hz3, View.ld_unit_zero (S := S1x2) hz3, View.ld_unit_zero (S := S512x2) hz3, View.ld_unit_zero (S := S512x64) hz3]

theorem ocanon3_C : View.canon (kernelRun3_C c i arg1 harg1 arg2 harg2 arg3 harg3 arg4 harg4 arg5 harg5 arg6 harg6 arg7 harg7 arg8 harg8 arg9 harg9 hc0 hc1 x0 x1 x2 x3 x4 x5 x6 xs0).1 = k3_pay3 x2 (k3_pay2 x1 x0 xs0) x3 x4 x5 x6 := by
  unfold kernelRun3_C
  dsimp only
  sl_unfold_words
  rw [View.canon_unit_zero hz3]
  rw [View.readCov_unit_zero (S := S512x64) _ hz3]
  simp only [View.readAt_eq_ld, harg1.read_unread, harg2.read_unread, harg3.read_unread, harg4.read_unread, harg5.read_unread, harg6.read_unread, harg7.read_unread, harg8.read_unread, harg9.read_unread, View.ld_unit_zero (S := S3584x64) hz3, View.ld_unit_zero (S := S1x3584) hz3, View.ld_unit_zero (S := S1x512) hz3, View.ld_unit_zero (S := S64x64) hz3, View.ld_unit_zero (S := S1x64) hz3, View.ld_unit_zero (S := S64x2) hz3, View.ld_unit_zero (S := S1x2) hz3, View.ld_unit_zero (S := S512x2) hz3, View.ld_unit_zero (S := S512x64) hz3]

end

end

def PhiS (c : Dev nD) : (n : ℕ) → n ≤ cfg3.N → sProp 𝕄
  | 0, _ => Pipeline.ΦA spec3 c
  | n + 1, hn => iprop(iprop(iprop(owns (c : Thread nD τ) scM3_0 fullShare (acc3 V c n hn)) ∗ Pipeline.scopedRestBut (Ix := Unit) (Name := ℕ) (U := UR sig nD τ) (Lvl := ℕ) (Val := Elt F) spec3 c [cc3_scratch0]) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(iprop(owns (c : Thread nD τ) scM3_0 fullShare (acc3 V c n hn)) ∗ Pipeline.scopedRestBut (Ix := Unit) (Name := ℕ) (U := UR sig nD τ) (Lvl := ℕ) (Val := Elt F) spec3 c [cc3_scratch0]) ∗ (∃ r, prngReg c r)) := rfl

theorem PhiS_pos (c : Dev nD) (n : ℕ) (h : n ≤ cfg3.N) (hz : n ≠ 0) :
    PhiS V c n h = iprop(iprop(iprop(owns (c : Thread nD τ) scM3_0 fullShare (acc3 V c (n - 1) (by omega))) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => fin3 V c t
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS_castSucc (c : Dev nD) (t : Fin cfg3.N) :
    (dat3 V c).Φ t.castSucc = PhiS V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = fin3 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in
/-- The body at any point, by the case its position selects; the accumulator passes from point to point through the invariant. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS V c (t.val + 1) t.isLt from rfl, PhiS_succ]
  have hN : t.val < 14 := lt_of_lt_of_eq t.isLt (show cfg3.N = 14 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  rw [show (dat3 V c).leavesExact 6 t = owns (c : Thread nD τ) (ms3_6 t) fullShare ((dat3 V c).after 6 t) from by
    unfold Dat.leavesExact; rw [liveAt3_6 t], after3_6]
  by_cases h0 : t.val % 14 = 0
  · have h1 : ¬t.val % 14 = 13 := by omega
    have hz : t.val = 0 := by omega
    rw [Dat.leavesExact_idle (dat3 V c) 7 t (idleAt3_7_A t ((hcond3_0 t).mpr h0) (fun h => h1 ((hcond3_1 t).mp h))) (noFlush3_7_A t ((hcond3_0 t).mpr h0) (fun h => h1 ((hcond3_1 t).mp h)))]
    rw [PhiS_castSucc V c t, PhiS_zero V c _ _ hz, PhiA3_eq, acc3_first V c t hz]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)).2.2 _ Set.univ _)
    iframe H0 H1 H2 H3 H4 H5 H6 H7 HS0
    iintro ⟨H0, H1, H2, H3, H4, H5, H6, H7, ⟨%es0, HS0⟩⟩
    iframe HR Hg Ho H0 H1 H2 H3 H4 H5 H6
    isplitl [HS0]
    · unfold owns; iexists _; isplitr
      swap; · iexact HS0
      ipureintro; exact (View.read_writes_eq_canon _ _ _ (scover3_A_0 (F := F) c _ _ _ _ _ _ _ _ _ _ _ _ _ _ _ _ _ _ _ _ _ _ _ _ _ _ _ _)).trans (scanon3_A (F := F) c _ _ _ _ _ _ _ _ _ _ _ _ _ _ _ _ _ _ _ _ _ _ _ _ _ _ _ _)
    iexists _; iexact H7
  · have hz : t.val ≠ 0 := by omega
    rw [PhiS_castSucc V c t, PhiS_pos V c _ _ hz]
    by_cases h1 : t.val % 14 = 13
    · rw [show (dat3 V c).leavesExact 7 t = owns (c : Thread nD τ) (ms3_7 t) fullShare ((dat3 V c).after 7 t) from by
        unfold Dat.leavesExact; rw [liveAt3_7_C t (fun h => h0 ((hcond3_0 t).mp h)) ((hcond3_1 t).mpr h1)], after3_7]
      unfold fin3
      rw [acc3_pos V c t hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) _).2.2 Set.univ _)
      iframe H0 H1 H2 H3 H4 H5 H6 HS0
      isplitl [H7]; · iexists _; iexact H7
      iintro ⟨H0, H1, H2, H3, H4, H5, H6, ⟨%e7, H7⟩, ⟨%es0, HS0⟩⟩
      iframe HR Hg Ho H0 H1 H2 H3 H4 H5 H6
      isplitl [HS0]
      · unfold owns; iexists _; isplitr
        swap; · iexact HS0
        ipureintro; exact (View.read_writes_eq_canon _ _ _ (scover3_C_0 (F := F) c _ _ _ _ _ _ _ _ _ _ _ _ _ _ _ _ _ _ _ _ _ _ _ _ _ _ _ _ _)).trans (scanon3_C (F := F) c _ _ _ _ _ _ _ _ _ _ _ _ _ _ _ _ _ _ _ _ _ _ _ _ _ _ _ _ _)
      unfold owns; iexists _; isplitr
      swap; · iexact H7
      ipureintro; exact (View.read_writes_eq_canon _ _ _ (cover3_C_7 (F := F) c _ _ _ _ _ _ _ _ _ _ _ _ _ _ _ _ _ _ _ _ _ _ _ _ _ _ _ _ _)).trans (ocanon3_C (F := F) c _ _ _ _ _ _ _ _ _ _ _ _ _ _ _ _ _ _ _ _ _ _ _ _ _ _ _ _ _)
    · rw [Dat.leavesExact_idle (dat3 V c) 7 t (idleAt3_7_B t (fun h => h0 ((hcond3_0 t).mp h)) (fun h => h1 ((hcond3_1 t).mp h))) (noFlush3_7_B t (fun h => h0 ((hcond3_0 t).mp h)) (fun h => h1 ((hcond3_1 t).mp h)))]
      rw [acc3_pos V c t hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) _).2.2 _ Set.univ _)
      iframe H0 H1 H2 H3 H4 H5 H6 H7 HS0
      iintro ⟨H0, H1, H2, H3, H4, H5, H6, H7, ⟨%es0, HS0⟩⟩
      iframe HR Hg Ho H0 H1 H2 H3 H4 H5 H6
      isplitl [HS0]
      · unfold owns; iexists _; isplitr
        swap; · iexact HS0
        ipureintro; exact (View.read_writes_eq_canon _ _ _ (scover3_B_0 (F := F) c _ _ _ _ _ _ _ _ _ _ _ _ _ _ _ _ _ _ _ _ _ _ _ _ _ _ _ _ _)).trans (scanon3_B (F := F) c _ _ _ _ _ _ _ _ _ _ _ _ _ _ _ _ _ _ _ _ _ _ _ _ _ _ _ _ _)
      iexists _; iexact H7

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS V c t.val (Nat.le_of_lt_succ t.isLt) from rfl, PhiS_pos V c _ _ ht, PhiA3_eq]
  iintro ⟨⟨HS0, HR⟩, Hg⟩
  isplitl [HS0 HR]
  · isplitl [HS0]
    · iexists _; iexact HS0
    iexact HR
  iexact Hg

theorem hout3 (c : Dev nD) : (dat3 V c).Φ (Fin.last cfg3.N) ⊢ Pipeline.ΦA spec3 c :=
  Phi_out3 V c _ (by rw [Fin.val_last]; have : cfg3.N = 14 := N_3; omega)

end Cert.KernelIdeal.Frame

end
-- ==== Proof.KiRun.lean ====
import proofs.«424059_j74191265071300_3_alg».proof.Proof.KiConv0
import proofs.«424059_j74191265071300_3_alg».proof.Proof.KiConv1
import proofs.«424059_j74191265071300_3_alg».proof.Proof.KiConv2
import proofs.«424059_j74191265071300_3_alg».proof.Proof.KiPool
import proofs.«424059_j74191265071300_3_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev VR1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (VR1 m) c).arrAt w cfg0.N
theorem W2_arr (c : Dev nD) (w : Fin cfg0.W) :
    W2 m c (Proc.devRef .tc (Pipeline.arrRef spec0 w)) = (dat0 (VR1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VR2 : (c : Dev nD) → (b : Ref sig .tc) → Buf (Elt F) ((c : Thread nD τ).loc b) := fun c b => W2 m c b
theorem hF0 (c : Dev nD) (w : Fin cfg0.W) : (dat0 (VR1 m) c).arrAt w cfg0.N = VR2 m c (Pipeline.arrRef spec0 w) :=
  (W2_arr m c w).symm
theorem hrest0 (c : Dev nD) : ∀ b, b ∉ Finset.univ.image (Pipeline.arrRef spec0) → VR2 m c b = VR1 m c b :=
  fun b hb => W2_of_ne m c b fun w e => hb (Finset.mem_image.mpr ⟨w, Finset.mem_univ _, e⟩)

abbrev W3 : Dev nD → Valuation τ sig (Elt F) := fun c => StableHlo.after hostOps1 (W2 m c)

abbrev VR3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (VR3 m) c).arrAt w cfg1.N
theorem W4_arr (c : Dev nD) (w : Fin cfg1.W) :
    W4 m c (Proc.devRef .tc (Pipeline.arrRef spec1 w)) = (dat1 (VR3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev VR4 : (c : Dev nD) → (b : Ref sig .tc) → Buf (Elt F) ((c : Thread nD τ).loc b) := fun c b => W4 m c b
theorem hF1 (c : Dev nD) (w : Fin cfg1.W) : (dat1 (VR3 m) c).arrAt w cfg1.N = VR4 m c (Pipeline.arrRef spec1 w) :=
  (W4_arr m c w).symm
theorem hrest1 (c : Dev nD) : ∀ b, b ∉ Finset.univ.image (Pipeline.arrRef spec1) → VR4 m c b = VR3 m c b :=
  fun b hb => W4_of_ne m c b fun w e => hb (Finset.mem_image.mpr ⟨w, Finset.mem_univ _, e⟩)

abbrev W5 : Dev nD → Valuation τ sig (Elt F) := fun c => StableHlo.after hostOps2 (W4 m c)

abbrev VR5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (VR5 m) c).arrAt w cfg2.N
theorem W6_arr (c : Dev nD) (w : Fin cfg2.W) :
    W6 m c (Proc.devRef .tc (Pipeline.arrRef spec2 w)) = (dat2 (VR5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev VR6 : (c : Dev nD) → (b : Ref sig .tc) → Buf (Elt F) ((c : Thread nD τ).loc b) := fun c b => W6 m c b
theorem hF2 (c : Dev nD) (w : Fin cfg2.W) : (dat2 (VR5 m) c).arrAt w cfg2.N = VR6 m c (Pipeline.arrRef spec2 w) :=
  (W6_arr m c w).symm
theorem hrest2 (c : Dev nD) : ∀ b, b ∉ Finset.univ.image (Pipeline.arrRef spec2) → VR6 m c b = VR5 m c b :=
  fun b hb => W6_of_ne m c b fun w e => hb (Finset.mem_image.mpr ⟨w, Finset.mem_univ _, e⟩)

abbrev W7 : Dev nD → Valuation τ sig (Elt F) := fun c => StableHlo.after hostOps3 (W6 m c)
abbrev W8 : Dev nD → Valuation τ sig (Elt F) := fun c => StableHlo.after hostOps3_1 (W7 m c)
abbrev W9 : Dev nD → Valuation τ sig (Elt F) := fun c => StableHlo.after hostOps3_2 (W8 m c)
abbrev W10 : Dev nD → Valuation τ sig (Elt F) := fun c => StableHlo.after hostOps3_3 (W9 m c)
abbrev W11 : Dev nD → Valuation τ sig (Elt F) := fun c => StableHlo.after hostOps3_4 (W10 m c)

abbrev VR11 : (c : Dev nD) → (b : Ref sig .tc) → Buf (Elt F) ((c : Thread nD τ).loc b) := fun c b => W11 m c b

def W12 (c : Dev nD) : Valuation τ sig (Elt F) :=
  Pipeline.withArrays spec3 c (W11 m c) fun w => (dat3 (VR11 m) c).arrAt w cfg3.N
theorem W12_arr (c : Dev nD) (w : Fin cfg3.W) :
    W12 m c (Proc.devRef .tc (Pipeline.arrRef spec3 w)) = (dat3 (VR11 m) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m c (Proc.devRef .tc b) = W11 m c (Proc.devRef .tc b) := by
  unfold W12; exact Pipeline.withArrays_of_ne spec3 c _ _ b hb
abbrev VR12 : (c : Dev nD) → (b : Ref sig .tc) → Buf (Elt F) ((c : Thread nD τ).loc b) := fun c b => W12 m c b
theorem hF3 (c : Dev nD) (w : Fin cfg3.W) : (dat3 (VR11 m) c).arrAt w cfg3.N = VR12 m c (Pipeline.arrRef spec3 w) :=
  (W12_arr m c w).symm
theorem hrest3 (c : Dev nD) : ∀ b, b ∉ Finset.univ.image (Pipeline.arrRef spec3) → VR12 m c b = VR11 m c b :=
  fun b hb => W12_of_ne m c b fun w e => hb (Finset.mem_image.mpr ⟨w, Finset.mem_univ _, e⟩)

abbrev W13 : Dev nD → Valuation τ sig (Elt F) := fun c => StableHlo.after hostOps4 (W12 m c)

def pd : (p : Fin 4) → (c : Dev nD) → Dat τ (Elt F) Unit ℕ (UR sig nD τ) ℕ (Pipeline.pin (pcfgs (F := F)) adm p) c
  | ⟨0, _⟩ => fun c => dat0 (VR1 m) c
  | ⟨1, _⟩ => fun c => dat1 (VR3 m) c
  | ⟨2, _⟩ => fun c => dat2 (VR5 m) c
  | ⟨3, _⟩ => fun c => dat3 (VR11 m) c
abbrev 𝒱n : Variants := Variants.none

abbrev Ln : GSem nD τ sig → Finset Unit := fun _ => ∅
abbrev lvn : GSem nD τ sig → Unit → ℕ := fun _ _ => 0

abbrev Rst (c : Dev nD) : sProp 𝕄 := iprop((∃ r, prngReg c r) ∗ ∃ W, owes (c : Thread nD τ) (0 : CellTallies nD τ sig Unit) W)

abbrev hsg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

def rg0 : Pipeline.RegionSeg (pcfgs (F := F)) adm (pd m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ Ln lvn 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) adm (pd m) launch0.win launch0.arr_whole c
      ((pd m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd m) ((pd m 0 c).share_full fun _ => rfl)
      (VR1 m c) (VR2 m c) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def rg1 : Pipeline.RegionSeg (pcfgs (F := F)) adm (pd m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (VR3 m) c).loose
  hwaits := Pipeline.hwaits_of_owed_zero _ _ _ _ Ln lvn 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (VR3 m c)
  hentry c := by
    rw [Pipeline.ownSems0_none]
    have hsplit := Pipeline.arrays_of_unscopedBufs (p := 1) (pcfgs (F := F)) adm (pd m) launch1.win launch1.arr_whole c
      ((pd m 1 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pd m) ((pd m 1 c).share_full fun _ => rfl)
      (VR3 m c) (VR4 m c) ((pd m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def rg2 : Pipeline.RegionSeg (pcfgs (F := F)) adm (pd m) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (VR5 m) c).loose
  hwaits := Pipeline.hwaits_of_owed_zero _ _ _ _ Ln lvn 2 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec2 c (VR5 m c)
  hentry c := by
    rw [Pipeline.ownSems0_none]
    have hsplit := Pipeline.arrays_of_unscopedBufs (p := 2) (pcfgs (F := F)) adm (pd m) launch2.win launch2.arr_whole c
      ((pd m 2 c).share_full fun _ => rfl) (VR5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 2 c).Φ 0 = Pipeline.ΦA spec2 c from rfl]; unfold Pipeline.ΦA
    iintro ⟨Hp, -, Hr⟩
    isplitl [Hr]; · iexact Hr
    iexact Hp
  hout c := by
    rw [Pipeline.ownSems0_none, show (pd m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pd m) ((pd m 2 c).share_full fun _ => rfl)
      (VR5 m c) (VR6 m c) ((pd m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def rg3 : Pipeline.RegionSeg (pcfgs (F := F)) adm (pd m) () defs₀ 𝒱n Ln lvn 3 where
  win := launch3.win.to₀
  block_pos := launch3.block_pos
  stage_whole := launch3.stage_whole
  K := PEmpty
  osem k := k.elim
  ho := Pipeline.OwnSemFacts.none _
  hbody c := (body_obligation3 (VR11 m) c).loose
  hwaits := Pipeline.hwaits_of_owed_zero _ _ _ _ Ln lvn 3 fun _ _ => rfl
  pre c := iprop(StableHlo.held (c : Thread nD τ) (Pipeline.ucRefs τ sig) (W11 m c) ∗ Rst c)
  post c := iprop(StableHlo.held (c : Thread nD τ) (Pipeline.ucRefs τ sig) (W12 m c) ∗ Rst c)
  X c := iprop(∃ r, prngReg c r)
  Y c := iprop(∃ r, prngReg c r)
  Z c := Pipeline.unscopedRest (Ix := Unit) (Name := ℕ) (U := UR sig nD τ) (Lvl := ℕ) spec3 c (VR11 m c)
  hentry c := by
    rw [Pipeline.ownSems0_none]
    have hsplit := Pipeline.arrays_of_unscopedBufs (p := 3) (pcfgs (F := F)) adm (pd m) launch3.win launch3.arr_whole c
      ((pd m 3 c).share_full fun _ => rfl) (VR11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec3 c : sProp 𝕄) ⊢ (pd m 3 c).Φ 0 from hin3 (VR11 m) c)
    unfold Pipeline.ΦA
    iintro ⟨Hp, -, Hr⟩
    isplitl [Hr]; · iexact Hr
    iexact Hp
  hout c := by
    rw [Pipeline.ownSems0_none]
    refine BIBase.Entails.trans (show (pd m 3 c).Φ (Fin.last _) ⊢ (Pipeline.ΦA spec3 c : sProp 𝕄) from hout3 (VR11 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pd m) ((pd m 3 c).share_full fun _ => rfl)
      (VR11 m c) (VR12 m c) ((pd m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev sgs : List (Pipeline.Seg (pcfgs (F := F)) adm (pd m) () defs₀ 𝒱n Ln lvn) :=
  [ .host (hsg hostOps0 hostOps0_sub hostOps0_fresh (W0 m)),
    .region (rg0 m),
    .host (hsg hostOps1 hostOps1_sub hostOps1_fresh (W2 m)),
    .region (rg1 m),
    .host (hsg hostOps2 hostOps2_sub hostOps2_fresh (W4 m)),
    .region (rg2 m),
    .host (hsg hostOps3 hostOps3_sub hostOps3_fresh (W6 m)),
    .host (hsg hostOps3_1 hostOps3_1_sub hostOps3_1_fresh (W7 m)),
    .host (hsg hostOps3_2 hostOps3_2_sub hostOps3_2_fresh (W8 m)),
    .host (hsg hostOps3_3 hostOps3_3_sub hostOps3_3_fresh (W9 m)),
    .host (hsg hostOps3_4 hostOps3_4_sub hostOps3_4_fresh (W10 m)),
    .region (rg3 m),
    .host (hsg hostOps4 hostOps4_sub hostOps4_fresh (W12 m)) ]

set_option backward.isDefEq.respectTransparency.types false in

theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W13 m c b) := by
  refine Pipeline.θ_run_regions_kit_dev (pcfgs (F := F)) adm (pd m) () cellOf_inj emb₁ defs₀ 𝒱n Ln lvn m ρ main
    (fun _ => sgs m)
    (fun c Q => by
      rewrite [main_chain c, Seg.run_eq_chain,
        show (sgs m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4 ] from rfl]
      exact .rfl)
    (fun c => by simp only [sgs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c))
    (Tₙ := fun c => StableHlo.held (c : Thread nD τ) (Pipeline.ucRefs τ sig) (W13 m c))
    (hch := fun c => ⟨.rfl, .rfl, .rfl, .rfl, .rfl, .rfl, .rfl, .rfl, .rfl, .rfl, .rfl, .rfl, .rfl,
      sep_mono .rfl (by iintro ⟨-, HO⟩; iexact HO)⟩)
    (hinit := by
      refine Pipeline.initEach Ln lvn fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨Hh, HSI⟩
      unfold StableHlo.held
      imodintro
      iapply (pointsTo_read_all (Pipeline.ucRefs τ sig) (fun b => (((c : Thread nD τ)).1, b)) (W13 m c) s')
      isplitl [Hh] <;> iassumption)
    (hQ := fun _ h => h)

end Cert.KernelIdeal.Frame

end
-- ==== Proof.KiFrame.lean ====
import proofs.«424059_j74191265071300_3_alg».proof.Proof.KiRun

set_option maxRecDepth 16384

noncomputable section

namespace Cert.KernelIdeal.Frame

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

theorem W2_keep (c : Dev nD) (b : Ref sig .tc) (hb : b ≠ main_v15) : W2 m c (Proc.devRef .tc b) = W1 m c (Proc.devRef .tc b) := by
  by_cases h : ∃ w, Pipeline.arrRef spec0 w = b
  · obtain ⟨w, rfl⟩ := h
    rw [W2_arr]
    fin_cases w <;> first
      | exact ((dat0 (VR1 m) c).arrAt_in _ rfl _).trans (A_eq0 _ c _)
      | exact absurd rfl hb
  · exact W2_of_ne m c b fun w e => h ⟨w, e⟩

theorem W4_keep (c : Dev nD) (b : Ref sig .tc) (hb : b ≠ main_v27) : W4 m c (Proc.devRef .tc b) = W3 m c (Proc.devRef .tc b) := by
  by_cases h : ∃ w, Pipeline.arrRef spec1 w = b
  · obtain ⟨w, rfl⟩ := h
    rw [W4_arr]
    fin_cases w <;> first
      | exact ((dat1 (VR3 m) c).arrAt_in _ rfl _).trans (A_eq1 _ c _)
      | exact absurd rfl hb
  · exact W4_of_ne m c b fun w e => h ⟨w, e⟩

theorem W6_keep (c : Dev nD) (b : Ref sig .tc) (hb : b ≠ main_v39) : W6 m c (Proc.devRef .tc b) = W5 m c (Proc.devRef .tc b) := by
  by_cases h : ∃ w, Pipeline.arrRef spec2 w = b
  · obtain ⟨w, rfl⟩ := h
    rw [W6_arr]
    fin_cases w <;> first
      | exact ((dat2 (VR5 m) c).arrAt_in _ rfl _).trans (A_eq2 _ c _)
      | exact absurd rfl hb
  · exact W6_of_ne m c b fun w e => h ⟨w, e⟩

theorem W12_keep (c : Dev nD) (b : Ref sig .tc) (hb : b ≠ main_v50) : W12 m c (Proc.devRef .tc b) = W11 m c (Proc.devRef .tc b) := by
  by_cases h : ∃ w, Pipeline.arrRef spec3 w = b
  · obtain ⟨w, rfl⟩ := h
    rw [W12_arr]
    fin_cases w <;> first
      | exact ((dat3 (VR11 m) c).arrAt_in _ rfl _).trans (A_eq3 _ c _)
      | exact absurd rfl hb
  · exact W12_of_ne m c b fun w e => h ⟨w, e⟩

/-- The buffers that end as launched: those no stretch of host operations writes and no call outputs. -/
def Kept (b : Ref sig .tc) : Prop :=
  ¬(Proc.devRef .tc b : DevRef τ sig).isScoped ∧ b ∉ hostOps0_W ∧ b ∉ hostOps1_W ∧ b ∉ hostOps2_W ∧ b ∉ hostOps3_W ∧ b ∉ hostOps3_1_W
    ∧ b ∉ hostOps3_2_W ∧ b ∉ hostOps3_3_W ∧ b ∉ hostOps3_4_W ∧ b ∉ hostOps4_W ∧ b ≠ main_v15 ∧ b ≠ main_v27 ∧ b ≠ main_v39 ∧ b ≠ main_v50

instance : DecidablePred Kept := fun _ => by unfold Kept; infer_instance

theorem W13_kept (c : Dev nD) (b : Ref sig .tc) (h : Kept b) : W13 m c (Proc.devRef .tc b) = m ((c : Thread nD τ).loc b) := by
  obtain ⟨-, h0, h1, h2, h3, h31, h32, h33, h34, h4, hr0, hr1, hr2, hr3⟩ := h
  exact calc W13 m c (Proc.devRef .tc b)
    _ = W12 m c (Proc.devRef .tc b) := StableHlo.after_of_writes_sub hostOps4 _ hostOps4_writes h4
    _ = W11 m c (Proc.devRef .tc b) := W12_keep m c b hr3
    _ = W10 m c (Proc.devRef .tc b) := StableHlo.after_of_writes_sub hostOps3_4 _ hostOps3_4_writes h34
    _ = W9 m c (Proc.devRef .tc b) := StableHlo.after_of_writes_sub hostOps3_3 _ hostOps3_3_writes h33
    _ = W8 m c (Proc.devRef .tc b) := StableHlo.after_of_writes_sub hostOps3_2 _ hostOps3_2_writes h32
    _ = W7 m c (Proc.devRef .tc b) := StableHlo.after_of_writes_sub hostOps3_1 _ hostOps3_1_writes h31
    _ = W6 m c (Proc.devRef .tc b) := StableHlo.after_of_writes_sub hostOps3 _ hostOps3_writes h3
    _ = W5 m c (Proc.devRef .tc b) := W6_keep m c b hr2
    _ = W4 m c (Proc.devRef .tc b) := StableHlo.after_of_writes_sub hostOps2 _ hostOps2_writes h2
    _ = W3 m c (Proc.devRef .tc b) := W4_keep m c b hr1
    _ = W2 m c (Proc.devRef .tc b) := StableHlo.after_of_writes_sub hostOps1 _ hostOps1_writes h1
    _ = W1 m c (Proc.devRef .tc b) := W2_keep m c b hr0
    _ = W0 m c (Proc.devRef .tc b) := StableHlo.after_of_writes_sub hostOps0 _ hostOps0_writes h0
    _ = m ((c : Thread nD τ).loc b) := rfl

/-- The run: the result buffer ends at the last boundary's contents, every argument as launched. -/
theorem run_result (ρ : Dev nD → PrngReg) :
    θ_run defs (onTc (τ := τ) (main (F := F))) ⟨m, fun _ => 0, ρ⟩ (fun r => ∀ c : Dev nD,
      r.2.mem ((c.tc : Thread nD τ).loc main_v51) = W13 m c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    have k : ∀ b, Kept b → r.2.mem ((c.tc : Thread nD τ).loc b) = m ((c.tc : Thread nD τ).loc b) :=
      fun b hb => (h c _ (mem_uc b hb.1)).trans (W13_kept m c b hb)
    ⟨h c _ (mem_uc main_v51 (by decide)), k main_arg0 (by decide), k main_arg1 (by decide), k main_arg2 (by decide), k main_arg3 (by decide),
      k main_arg4 (by decide), k main_arg5 (by decide), k main_arg6 (by decide), k main_arg7 (by decide), k main_arg8 (by decide),
      k main_arg9 (by decide), k main_arg10 (by decide), k main_arg11 (by decide), k main_arg12 (by decide), k main_arg13 (by decide),
      k main_arg14 (by decide), k main_arg15 (by decide)⟩) (run_all m ρ)

end Cert.KernelIdeal.Frame

end
-- ==== Proof.KiPayConv.lean ====
import proofs.«424059_j74191265071300_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payloads

open Idealize.ShloMosaic Idealize.ShloMosaic.ValueIdx Cert.KernelIdeal

theorem lhs_conv_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

theorem lhs_conv_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

theorem rhs_conv_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

theorem rhs_conv_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem mm_conv_apply {φ₁ φ₂ : FTy} (A : FVec Ideal S5000x64 φ₁) (B : FVec Ideal S64x64 φ₂) (p : Fin 5000) (q : Fin 64) :
    matmul dot_S5000x64_S64x64_S5000x64_1_0_0_1_n_n none A B (constant (F := Ideal) S5000x64 .f32 0x00000000#32) (ix2 p q)
      = ∑ k : Fin 64, A (ix2 p k) * B (ix2 k q) := by
  show FloatOps.matmul _ _ _ _ _ _ = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_conv_0 _ _
    | ⟨1, _⟩ => exact (lhs_conv_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_conv_0 _ _).trans hk
    | ⟨1, _⟩ => exact rhs_conv_1 _ _)
  rw [el, er]

theorem bias_conv_apply (b : FVec Ideal S1x64 .f32) (h : S1x64.Broadcasts S5000x64) (p : Fin 5000) (q : Fin 64) :
    broadcastTo S5000x64 b h (ix2 p q) = b (ix2 (0 : Fin 1) q) :=
  broadcastTo_1b_ab_apply b h p q

theorem k0_pay1_apply (v0 v2 : Vec Ideal S5000x64 .f32) (v5 v7 : Vec Ideal S64x64 .f32) (v12 : Vec Ideal S1x64 .f32) (p : Fin 5000) (q : Fin 64) :
    Gen.k0_pay1 (F := Ideal) v0 v2 v5 v7 v12 (ix2 p q)
      = max (((∑ k : Fin 64, v0 (ix2 p k) * v5 (ix2 k q)) + (∑ k : Fin 64, v2 (ix2 p k) * v7 (ix2 k q))) + v12 (ix2 (0 : Fin 1) q)) 0 := by
  unfold Gen.k0_pay1
  rw [maximumf_apply, addf_apply, addf_apply, broadcast_apply, mm_conv_apply, mm_conv_apply, bias_conv_apply, shapeCast_self, shapeCast_self]

  exact congrArg (max _) Ideal.ofBits_zero_f32

theorem k1_pay1_apply (v0 v3 : Vec Ideal S5000x64 .f32) (v6 v8 : Vec Ideal S64x64 .f32) (v13 : Vec Ideal S1x64 .f32) (p : Fin 5000) (q : Fin 64) :
    Gen.k1_pay1 (F := Ideal) v0 v3 v6 v8 v13 (ix2 p q)
      = max (((∑ k : Fin 64, v0 (ix2 p k) * v6 (ix2 k q)) + (∑ k : Fin 64, v3 (ix2 p k) * v8 (ix2 k q))) + v13 (ix2 (0 : Fin 1) q)) 0 := by
  unfold Gen.k1_pay1
  rw [maximumf_apply, addf_apply, addf_apply, broadcast_apply, mm_conv_apply, mm_conv_apply, bias_conv_apply, shapeCast_self, shapeCast_self, shapeCast_self]
  exact congrArg (max _) Ideal.ofBits_zero_f32

theorem k2_pay1_apply (v0 v3 : Vec Ideal S5000x64 .f32) (v6 v8 : Vec Ideal S64x64 .f32) (v13 : Vec Ideal S1x64 .f32) (p : Fin 5000) (q : Fin 64) :
    Gen.k2_pay1 (F := Ideal) v0 v3 v6 v8 v13 (ix2 p q)
      = max (((∑ k : Fin 64, v0 (ix2 p k) * v6 (ix2 k q)) + (∑ k : Fin 64, v3 (ix2 p k) * v8 (ix2 k q))) + v13 (ix2 (0 : Fin 1) q)) 0 := by
  unfold Gen.k2_pay1
  rw [maximumf_apply, addf_apply, addf_apply, broadcast_apply, mm_conv_apply, mm_conv_apply, bias_conv_apply, shapeCast_self, shapeCast_self, shapeCast_self]
  exact congrArg (max _) Ideal.ofBits_zero_f32

end Cert.KernelIdeal.Payloads

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Nodes : Shape := ⟨2, ![50000, 64]⟩

abbrev Sq : Shape := ⟨2, ![64, 64]⟩

abbrev B64 : Shape := ⟨1, ![64]⟩

abbrev W2 : Shape := ⟨2, ![64, 2]⟩

abbrev B2 : Shape := ⟨1, ![2]⟩

abbrev Ids : Shape := ⟨1, ![50000]⟩

abbrev Res : Shape := ⟨2, ![500, 2]⟩

def convAt (h agg : Nodes.Idx → EReal) (wroot wrel : Sq.Idx → EReal) (b : B64.Idx → EReal)
    (n : Fin 50000) (c : Fin 64) : EReal :=
  max (((∑ k : Fin 64, h (ix2 n k) * wroot (ix2 k c)) + (∑ k : Fin 64, agg (ix2 n k) * wrel (ix2 k c))) + b (ix1 c)) 0

def conv (h agg : Nodes.Idx → EReal) (wroot wrel : Sq.Idx → EReal) (b : B64.Idx → EReal) : Nodes.Idx → EReal :=
  fun j => convAt h agg wroot wrel b (j 0) (j 1)

def members (batch : IVec Ids 32) (g : Nat) : Finset (Fin 50000) :=
  Finset.univ.filter fun e : Fin 50000 => (batch (ix1 e)).toInt = (g : Int)

def sumAt (h : Nodes.Idx → EReal) (batch : IVec Ids 32) (g : Nat) (c : Fin 64) : EReal :=
  ∑ e ∈ members batch g, h (ix2 e c)

def countAt (batch : IVec Ids 32) (g : Nat) : EReal :=
  ∑ _e ∈ members batch g, (1 : EReal)

def pooledAt (h : Nodes.Idx → EReal) (batch : IVec Ids 32) (g : Nat) (c : Fin 64) : EReal :=
  Ideal.div (sumAt h batch g c) (max (countAt batch g) 1)

def hidAt (h : Nodes.Idx → EReal) (batch : IVec Ids 32) (wf1 : Sq.Idx → EReal) (bf1 : B64.Idx → EReal) (g : Nat) (c : Fin 64) : EReal :=
  (∑ k : Fin 64, pooledAt h batch g k * wf1 (ix2 k c)) + bf1 (ix1 c)

def outAt (h : Nodes.Idx → EReal) (batch : IVec Ids 32) (wf1 : Sq.Idx → EReal) (bf1 : B64.Idx → EReal)
    (wf2 : W2.Idx → EReal) (bf2 : B2.Idx → EReal) (g : Nat) (o : Fin 2) : EReal :=
  (∑ k : Fin 64, hidAt h batch wf1 bf1 g k * wf2 (ix2 k o)) + bf2 (ix1 o)

def feats (aggOf : (Nodes.Idx → EReal) → (Nodes.Idx → EReal)) (x : Nodes.Idx → EReal)
    (w1rel w1root : Sq.Idx → EReal) (b1 : B64.Idx → EReal) (w2rel w2root : Sq.Idx → EReal) (b2 : B64.Idx → EReal)
    (w3rel w3root : Sq.Idx → EReal) (b3 : B64.Idx → EReal) : Nodes.Idx → EReal :=
  let h1 := conv x (aggOf x) w1root w1rel b1
  let h2 := conv h1 (aggOf h1) w2root w2rel b2
  conv h2 (aggOf h2) w3root w3rel b3

def result (aggOf : (Nodes.Idx → EReal) → (Nodes.Idx → EReal)) (x : Nodes.Idx → EReal) (batch : IVec Ids 32)
    (w1rel w1root : Sq.Idx → EReal) (b1 : B64.Idx → EReal) (w2rel w2root : Sq.Idx → EReal) (b2 : B64.Idx → EReal)
    (w3rel w3root : Sq.Idx → EReal) (b3 : B64.Idx → EReal)
    (wf1 : Sq.Idx → EReal) (bf1 : B64.Idx → EReal) (wf2 : W2.Idx → EReal) (bf2 : B2.Idx → EReal) : Res.Idx → EReal :=
  fun j => outAt (feats aggOf x w1rel w1root b1 w2rel w2root b2 w3rel w3root b3) batch wf1 bf1 wf2 bf2 (j 0).val (j 1)

end Cert.Spec

end
-- ==== Proof.KiConvValue.lean ====
import proofs.«424059_j74191265071300_3_alg».proof.Proof.KiConv0
import proofs.«424059_j74191265071300_3_alg».proof.Proof.KiConv1
import proofs.«424059_j74191265071300_3_alg».proof.Proof.KiConv2
import proofs.«424059_j74191265071300_3_alg».proof.Proof.KiPayConv
import proofs.«424059_j74191265071300_3_alg».proof.Proof.Spec
import Idealize.ShloMosaic.Lib.Pipeline.Value
import Idealize.ShloMosaic.Lib.ValueIdx

set_option maxRecDepth 16384

noncomputable section

open scoped BigOperators

namespace Cert.KernelIdeal.ConvValue

open Cert.KernelIdeal Cert.KernelIdeal.Gen Cert.KernelIdeal.Frame Cert.KernelIdeal.Payloads
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

def rowOf (b : FVec Ideal S1x64 .f32) : Cert.Spec.B64.Idx → EReal := fun i => b (ix2 (0 : Fin 1) (i 0))

theorem hz : (![0, 0] : Fin 2 → Nat) = fun _ => 0 := funext fun a => by fin_cases a <;> rfl

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem iblk0_0_apply (c : Dev nD) (t : Fin cfg0.N) (x : S5000x64.Idx) (k : S50000x64.Idx)
    (hk0 : (k 0).val = 5000 * t.val + (x 0).val) (hk1 : (k 1).val = (x 1).val) :
    (iblk0 V c 0 t : Vec Ideal S5000x64 .f32) x = (V c main_arg0 : S50000x64.Idx → Elt Ideal .f32) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 64 + 1 * (x 1).val = (k 1).val; rw [e1, hk1]; omega

theorem iblk0_1_apply (c : Dev nD) (t : Fin cfg0.N) (x : S5000x64.Idx) (k : S50000x64.Idx)
    (hk0 : (k 0).val = 5000 * t.val + (x 0).val) (hk1 : (k 1).val = (x 1).val) :
    (iblk0 V c 1 t : Vec Ideal S5000x64 .f32) x = (V c main_v13 : S50000x64.Idx → Elt Ideal .f32) k := by
  obtain ⟨-, -, e0, e1, -⟩ := idx_facts0 t
  unfold iblk0
  rw [View.read_apply]
  show V c main_v13 _ = V c main_v13 _
  congr 1
  funext a
  apply Fin.ext
  match a with
  | ⟨0, _⟩ => show win0_1.index t (0 : Fin 2) * 5000 + 1 * (x 0).val = (k 0).val; rw [e0, hk0]; omega
  | ⟨1, _⟩ => show win0_1.index t (1 : Fin 2) * 64 + 1 * (x 1).val = (k 1).val; rw [e1, hk1]; omega

theorem iblk0_2_apply (c : Dev nD) (t : Fin cfg0.N) (x : S64x64.Idx) :
    (iblk0 V c 2 t : Vec Ideal S64x64 .f32) x = (V c main_arg4 : S64x64.Idx → Elt Ideal .f32) x := by
  obtain ⟨-, -, -, -, e0, e1, -⟩ := idx_facts0 t
  unfold iblk0
  rw [View.read_apply]
  show V c main_arg4 _ = V c main_arg4 _
  congr 1
  funext a
  apply Fin.ext
  match a with
  | ⟨0, _⟩ => show win0_2.index t (0 : Fin 2) * 64 + 1 * (x 0).val = (x 0).val; rw [e0]; omega
  | ⟨1, _⟩ => show win0_2.index t (1 : Fin 2) * 64 + 1 * (x 1).val = (x 1).val; rw [e1]; omega

theorem iblk0_3_apply (c : Dev nD) (t : Fin cfg0.N) (x : S64x64.Idx) :
    (iblk0 V c 3 t : Vec Ideal S64x64 .f32) x = (V c main_arg3 : S64x64.Idx → Elt Ideal .f32) x := by
  obtain ⟨-, -, -, -, -, -, e0, e1, -⟩ := idx_facts0 t
  unfold iblk0
  rw [View.read_apply]
  show V c main_arg3 _ = V c main_arg3 _
  congr 1
  funext a
  apply Fin.ext
  match a with
  | ⟨0, _⟩ => show win0_3.index t (0 : Fin 2) * 64 + 1 * (x 0).val = (x 0).val; rw [e0]; omega
  | ⟨1, _⟩ => show win0_3.index t (1 : Fin 2) * 64 + 1 * (x 1).val = (x 1).val; rw [e1]; omega

theorem iblk0_4_apply (c : Dev nD) (t : Fin cfg0.N) (x : S1x64.Idx) :
    (iblk0 V c 4 t : Vec Ideal S1x64 .f32) x = (V c main_v14 : S1x64.Idx → Elt Ideal .f32) x := by
  obtain ⟨-, -, -, -, -, -, -, -, e0, e1, -⟩ := idx_facts0 t
  unfold iblk0
  rw [View.read_apply]
  show V c main_v14 _ = V c main_v14 _
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 64 + 1 * (x 1).val = (x 1).val; rw [e1]; omega

def G0 (c : Dev nD) : S50000x64.Idx → Elt Ideal .f32 :=
  Cert.Spec.conv (V c main_arg0) (V c main_v13) (V c main_arg4) (V c main_arg3) (rowOf (V c main_v14))

theorem point0 (c : Dev nD) (t : Fin cfg0.N) (p : Fin 5000) (q : Fin 64) (r : Fin 50000) (hr : r.val = 5000 * t.val + p.val) :
    Gen.k0_pay1 (F := Ideal) (iblk0 V c 0 t) (iblk0 V c 1 t) (iblk0 V c 2 t) (iblk0 V c 3 t) (iblk0 V c 4 t) (ix2 p q)
      = G0 V c (ix2 r q) := by
  rw [k0_pay1_apply]
  have e0 : ∀ k : Fin 64, (iblk0 V c 0 t : Vec Ideal S5000x64 .f32) (ix2 p k) = (V c main_arg0 : S50000x64.Idx → Elt Ideal .f32) (ix2 r k) :=
    fun k => iblk0_0_apply V c t (ix2 p k) (ix2 r k) hr rfl
  have e1 : ∀ k : Fin 64, (iblk0 V c 1 t : Vec Ideal S5000x64 .f32) (ix2 p k) = (V c main_v13 : S50000x64.Idx → Elt Ideal .f32) (ix2 r k) :=
    fun k => iblk0_1_apply V c t (ix2 p k) (ix2 r k) hr rfl
  simp only [e0, e1, iblk0_2_apply, iblk0_3_apply, iblk0_4_apply]
  rfl

theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 (F := Ideal) V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨-, -, -, -, -, -, -, -, -, -, e0, e1⟩ := idx_facts0 t
  funext y
  have hy0 : (y 0).val < 5000 := (y 0).isLt
  have hy1 : (y 1).val < 64 := (y 1).isLt
  have ht : t.val < 10 := t.isLt
  show Gen.k0_pay1 (F := Ideal) (iblk0 V c 0 t) (iblk0 V c 1 t) (iblk0 V c 2 t) (iblk0 V c 3 t) (iblk0 V c 4 t) ((cfg0.win 5).xinj (grid0.coords t) y)
      = G0 V c (((cfg0.win 5).blk t).view.emb y)
  have hx : (cfg0.win 5).xinj (grid0.coords t) y = ix2 (⟨(y 0).val, hy0⟩ : Fin 5000) (⟨(y 1).val, hy1⟩ : Fin 64) :=
    funext fun a => Fin.ext (by match a with | ⟨0, _⟩ => rfl | ⟨1, _⟩ => rfl)
  have he : ((cfg0.win 5).blk t).view.emb y = ix2 (⟨5000 * t.val + (y 0).val, by omega⟩ : Fin 50000) (⟨(y 1).val, hy1⟩ : Fin 64) := by
    funext a; apply Fin.ext
    match a with
    | ⟨0, _⟩ => show win0_5.index t (0 : Fin 2) * 5000 + 1 * (y 0).val = 5000 * t.val + (y 0).val; rw [e0]; omega
    | ⟨1, _⟩ => show win0_5.index t (1 : Fin 2) * 64 + 1 * (y 1).val = (y 1).val; rw [e1]; omega
  rw [hx, he]
  exact point0 V c t _ _ _ rfl

theorem mem_blk0 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v15).slice (win0_5.rect t)).set ↔ _
  rw [View.set_slice_whole, Rect.mem_set_unit]
  exact Iff.rfl

theorem cover0 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  refine ⟨⟨(i 0).val / 5000, by show (i 0).val / 5000 < 10; omega⟩, flush0_5 _, ?_⟩
  rw [mem_blk0]
  obtain ⟨-, -, -, -, -, -, -, -, -, -, e0, e1⟩ := idx_facts0 ⟨(i 0).val / 5000, by show (i 0).val / 5000 < 10; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [e1]; omega

theorem conv0_final (c : Dev nD) :
    (dat0 (F := Ideal) V c).arrAt 5 cfg0.N
      = Cert.Spec.conv (V c main_arg0) (V c main_v13) (V c main_arg4) (V c main_arg3) (rowOf (V c main_v14)) :=
  (dat0 (F := Ideal) V c).arrAt_eq_of_cover 5 (G0 V c) (fun t _ => flushed0_eq V c t) cover0

end Cert.KernelIdeal.ConvValue

end
-- ==== Proof.KiConvValue1.lean ====
import proofs.«424059_j74191265071300_3_alg».proof.Proof.KiConv0
import proofs.«424059_j74191265071300_3_alg».proof.Proof.KiConv1
import proofs.«424059_j74191265071300_3_alg».proof.Proof.KiConv2
import proofs.«424059_j74191265071300_3_alg».proof.Proof.KiPayConv
import proofs.«424059_j74191265071300_3_alg».proof.Proof.Spec
import proofs.«424059_j74191265071300_3_alg».proof.Proof.KiConvValue
import Idealize.ShloMosaic.Lib.Pipeline.Value
import Idealize.ShloMosaic.Lib.ValueIdx

set_option maxRecDepth 16384

noncomputable section

open scoped BigOperators

namespace Cert.KernelIdeal.ConvValue

open Cert.KernelIdeal Cert.KernelIdeal.Gen Cert.KernelIdeal.Frame Cert.KernelIdeal.Payloads
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem iblk1_0_apply (c : Dev nD) (t : Fin cfg1.N) (x : S5000x64.Idx) (k : S50000x64.Idx)
    (hk0 : (k 0).val = 5000 * t.val + (x 0).val) (hk1 : (k 1).val = (x 1).val) :
    (iblk1 V c 0 t : Vec Ideal S5000x64 .f32) x = (V c main_v15 : S50000x64.Idx → Elt Ideal .f32) k := by
  obtain ⟨e0, e1, -⟩ := idx_facts1 t
  unfold iblk1
  rw [View.read_apply]
  show V c main_v15 _ = V c main_v15 _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 64 + 1 * (x 1).val = (k 1).val; rw [e1, hk1]; omega

theorem iblk1_1_apply (c : Dev nD) (t : Fin cfg1.N) (x : S5000x64.Idx) (k : S50000x64.Idx)
    (hk0 : (k 0).val = 5000 * t.val + (x 0).val) (hk1 : (k 1).val = (x 1).val) :
    (iblk1 V c 1 t : Vec Ideal S5000x64 .f32) x = (V c main_v25 : S50000x64.Idx → Elt Ideal .f32) k := by
  obtain ⟨-, -, e0, e1, -⟩ := idx_facts1 t
  unfold iblk1
  rw [View.read_apply]
  show V c main_v25 _ = V c main_v25 _
  congr 1
  funext a
  apply Fin.ext
  match a with
  | ⟨0, _⟩ => show win1_1.index t (0 : Fin 2) * 5000 + 1 * (x 0).val = (k 0).val; rw [e0, hk0]; omega
  | ⟨1, _⟩ => show win1_1.index t (1 : Fin 2) * 64 + 1 * (x 1).val = (k 1).val; rw [e1, hk1]; omega

theorem iblk1_2_apply (c : Dev nD) (t : Fin cfg1.N) (x : S64x64.Idx) :
    (iblk1 V c 2 t : Vec Ideal S64x64 .f32) x = (V c main_arg7 : S64x64.Idx → Elt Ideal .f32) x := by
  obtain ⟨-, -, -, -, e0, e1, -⟩ := idx_facts1 t
  unfold iblk1
  rw [View.read_apply]
  show V c main_arg7 _ = V c main_arg7 _
  congr 1
  funext a
  apply Fin.ext
  match a with
  | ⟨0, _⟩ => show win1_2.index t (0 : Fin 2) * 64 + 1 * (x 0).val = (x 0).val; rw [e0]; omega
  | ⟨1, _⟩ => show win1_2.index t (1 : Fin 2) * 64 + 1 * (x 1).val = (x 1).val; rw [e1]; omega

theorem iblk1_3_apply (c : Dev nD) (t : Fin cfg1.N) (x : S64x64.Idx) :
    (iblk1 V c 3 t : Vec Ideal S64x64 .f32) x = (V c main_arg6 : S64x64.Idx → Elt Ideal .f32) x := by
  obtain ⟨-, -, -, -, -, -, e0, e1, -⟩ := idx_facts1 t
  unfold iblk1
  rw [View.read_apply]
  show V c main_arg6 _ = V c main_arg6 _
  congr 1
  funext a
  apply Fin.ext
  match a with
  | ⟨0, _⟩ => show win1_3.index t (0 : Fin 2) * 64 + 1 * (x 0).val = (x 0).val; rw [e0]; omega
  | ⟨1, _⟩ => show win1_3.index t (1 : Fin 2) * 64 + 1 * (x 1).val = (x 1).val; rw [e1]; omega

theorem iblk1_4_apply (c : Dev nD) (t : Fin cfg1.N) (x : S1x64.Idx) :
    (iblk1 V c 4 t : Vec Ideal S1x64 .f32) x = (V c main_v26 : S1x64.Idx → Elt Ideal .f32) x := by
  obtain ⟨-, -, -, -, -, -, -, -, e0, e1, -⟩ := idx_facts1 t
  unfold iblk1
  rw [View.read_apply]
  show V c main_v26 _ = V c main_v26 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

def G1 (c : Dev nD) : S50000x64.Idx → Elt Ideal .f32 :=
  Cert.Spec.conv (V c main_v15) (V c main_v25) (V c main_arg7) (V c main_arg6) (rowOf (V c main_v26))

theorem point1 (c : Dev nD) (t : Fin cfg1.N) (p : Fin 5000) (q : Fin 64) (r : Fin 50000) (hr : r.val = 5000 * t.val + p.val) :
    Gen.k1_pay1 (F := Ideal) (iblk1 V c 0 t) (iblk1 V c 1 t) (iblk1 V c 2 t) (iblk1 V c 3 t) (iblk1 V c 4 t) (ix2 p q)
      = G1 V c (ix2 r q) := by
  rw [k1_pay1_apply]
  have e0 : ∀ k : Fin 64, (iblk1 V c 0 t : Vec Ideal S5000x64 .f32) (ix2 p k) = (V c main_v15 : S50000x64.Idx → Elt Ideal .f32) (ix2 r k) :=
    fun k => iblk1_0_apply V c t (ix2 p k) (ix2 r k) hr rfl
  have e1 : ∀ k : Fin 64, (iblk1 V c 1 t : Vec Ideal S5000x64 .f32) (ix2 p k) = (V c main_v25 : S50000x64.Idx → Elt Ideal .f32) (ix2 r k) :=
    fun k => iblk1_1_apply V c t (ix2 p k) (ix2 r k) hr rfl
  simp only [e0, e1, iblk1_2_apply, iblk1_3_apply, iblk1_4_apply]
  rfl

theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz]
  simp only [View.ld_unit_zero (S := S5000x64) hz, View.ld_unit_zero (S := S64x64) hz, View.ld_unit_zero (S := S1x64) hz]
  obtain ⟨-, -, -, -, -, -, -, -, -, -, e0, e1⟩ := idx_facts1 t
  funext y
  have hy0 : (y 0).val < 5000 := (y 0).isLt
  have hy1 : (y 1).val < 64 := (y 1).isLt
  have ht : t.val < 10 := t.isLt
  show Gen.k1_pay1 (F := Ideal) (iblk1 V c 0 t) (iblk1 V c 1 t) (iblk1 V c 2 t) (iblk1 V c 3 t) (iblk1 V c 4 t) ((cfg1.win 5).xinj (grid1.coords t) y)
      = G1 V c (((cfg1.win 5).blk t).view.emb y)
  have hx : (cfg1.win 5).xinj (grid1.coords t) y = ix2 (⟨(y 0).val, hy0⟩ : Fin 5000) (⟨(y 1).val, hy1⟩ : Fin 64) :=
    funext fun a => Fin.ext (by match a with | ⟨0, _⟩ => rfl | ⟨1, _⟩ => rfl)
  have he : ((cfg1.win 5).blk t).view.emb y = ix2 (⟨5000 * t.val + (y 0).val, by omega⟩ : Fin 50000) (⟨(y 1).val, hy1⟩ : Fin 64) := by
    funext a; apply Fin.ext
    match a with
    | ⟨0, _⟩ => show win1_5.index t (0 : Fin 2) * 5000 + 1 * (y 0).val = 5000 * t.val + (y 0).val; rw [e0]; omega
    | ⟨1, _⟩ => show win1_5.index t (1 : Fin 2) * 64 + 1 * (y 1).val = (y 1).val; rw [e1]; omega
  rw [hx, he]
  exact point1 V c t _ _ _ rfl

theorem mem_blk1 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v27).slice (win1_5.rect t)).set ↔ _
  rw [View.set_slice_whole, Rect.mem_set_unit]
  exact Iff.rfl

theorem cover1 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  refine ⟨⟨(i 0).val / 5000, by show (i 0).val / 5000 < 10; omega⟩, flush1_5 _, ?_⟩
  rw [mem_blk1]
  obtain ⟨-, -, -, -, -, -, -, -, -, -, e0, e1⟩ := idx_facts1 ⟨(i 0).val / 5000, by show (i 0).val / 5000 < 10; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 64 ≤ (i 1).val ∧ (i 1).val < win1_5.index _ (1 : Fin 2) * 64 + 64
    rw [e1]; omega

theorem conv1_final (c : Dev nD) :
    (dat1 (F := Ideal) V c).arrAt 5 cfg1.N
      = Cert.Spec.conv (V c main_v15) (V c main_v25) (V c main_arg7) (V c main_arg6) (rowOf (V c main_v26)) :=
  (dat1 (F := Ideal) V c).arrAt_eq_of_cover 5 (G1 V c) (fun t _ => flushed1_eq V c t) cover1

end Cert.KernelIdeal.ConvValue

end
-- ==== Proof.KiConvValue2.lean ====
import proofs.«424059_j74191265071300_3_alg».proof.Proof.KiConv0
import proofs.«424059_j74191265071300_3_alg».proof.Proof.KiConv1
import proofs.«424059_j74191265071300_3_alg».proof.Proof.KiConv2
import proofs.«424059_j74191265071300_3_alg».proof.Proof.KiPayConv
import proofs.«424059_j74191265071300_3_alg».proof.Proof.Spec
import proofs.«424059_j74191265071300_3_alg».proof.Proof.KiConvValue
import Idealize.ShloMosaic.Lib.Pipeline.Value
import Idealize.ShloMosaic.Lib.ValueIdx

set_option maxRecDepth 16384

noncomputable section

open scoped BigOperators

namespace Cert.KernelIdeal.ConvValue

open Cert.KernelIdeal Cert.KernelIdeal.Gen Cert.KernelIdeal.Frame Cert.KernelIdeal.Payloads
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem iblk2_0_apply (c : Dev nD) (t : Fin cfg2.N) (x : S5000x64.Idx) (k : S50000x64.Idx)
    (hk0 : (k 0).val = 5000 * t.val + (x 0).val) (hk1 : (k 1).val = (x 1).val) :
    (iblk2 V c 0 t : Vec Ideal S5000x64 .f32) x = (V c main_v27 : S50000x64.Idx → Elt Ideal .f32) k := by
  obtain ⟨e0, e1, -⟩ := idx_facts2 t
  unfold iblk2
  rw [View.read_apply]
  show V c main_v27 _ = V c main_v27 _
  congr 1
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 64 + 1 * (x 1).val = (k 1).val; rw [e1, hk1]; omega

theorem iblk2_1_apply (c : Dev nD) (t : Fin cfg2.N) (x : S5000x64.Idx) (k : S50000x64.Idx)
    (hk0 : (k 0).val = 5000 * t.val + (x 0).val) (hk1 : (k 1).val = (x 1).val) :
    (iblk2 V c 1 t : Vec Ideal S5000x64 .f32) x = (V c main_v37 : S50000x64.Idx → Elt Ideal .f32) k := by
  obtain ⟨-, -, e0, e1, -⟩ := idx_facts2 t
  unfold iblk2
  rw [View.read_apply]
  show V c main_v37 _ = V c main_v37 _
  congr 1
  funext a
  apply Fin.ext
  match a with
  | ⟨0, _⟩ => show win2_1.index t (0 : Fin 2) * 5000 + 1 * (x 0).val = (k 0).val; rw [e0, hk0]; omega
  | ⟨1, _⟩ => show win2_1.index t (1 : Fin 2) * 64 + 1 * (x 1).val = (k 1).val; rw [e1, hk1]; omega

theorem iblk2_2_apply (c : Dev nD) (t : Fin cfg2.N) (x : S64x64.Idx) :
    (iblk2 V c 2 t : Vec Ideal S64x64 .f32) x = (V c main_arg10 : S64x64.Idx → Elt Ideal .f32) x := by
  obtain ⟨-, -, -, -, e0, e1, -⟩ := idx_facts2 t
  unfold iblk2
  rw [View.read_apply]
  show V c main_arg10 _ = V c main_arg10 _
  congr 1
  funext a
  apply Fin.ext
  match a with
  | ⟨0, _⟩ => show win2_2.index t (0 : Fin 2) * 64 + 1 * (x 0).val = (x 0).val; rw [e0]; omega
  | ⟨1, _⟩ => show win2_2.index t (1 : Fin 2) * 64 + 1 * (x 1).val = (x 1).val; rw [e1]; omega

theorem iblk2_3_apply (c : Dev nD) (t : Fin cfg2.N) (x : S64x64.Idx) :
    (iblk2 V c 3 t : Vec Ideal S64x64 .f32) x = (V c main_arg9 : S64x64.Idx → Elt Ideal .f32) x := by
  obtain ⟨-, -, -, -, -, -, e0, e1, -⟩ := idx_facts2 t
  unfold iblk2
  rw [View.read_apply]
  show V c main_arg9 _ = V c main_arg9 _
  congr 1
  funext a
  apply Fin.ext
  match a with
  | ⟨0, _⟩ => show win2_3.index t (0 : Fin 2) * 64 + 1 * (x 0).val = (x 0).val; rw [e0]; omega
  | ⟨1, _⟩ => show win2_3.index t (1 : Fin 2) * 64 + 1 * (x 1).val = (x 1).val; rw [e1]; omega

theorem iblk2_4_apply (c : Dev nD) (t : Fin cfg2.N) (x : S1x64.Idx) :
    (iblk2 V c 4 t : Vec Ideal S1x64 .f32) x = (V c main_v38 : S1x64.Idx → Elt Ideal .f32) x := by
  obtain ⟨-, -, -, -, -, -, -, -, e0, e1, -⟩ := idx_facts2 t
  unfold iblk2
  rw [View.read_apply]
  show V c main_v38 _ = V c main_v38 _
  congr 1
  funext a
  apply Fin.ext
  match a with
  | ⟨0, _⟩ => show win2_4.index t (0 : Fin 2) * 1 + 1 * (x 0).val = (x 0).val; rw [e0]; omega
  | ⟨1, _⟩ => show win2_4.index t (1 : Fin 2) * 64 + 1 * (x 1).val = (x 1).val; rw [e1]; omega

def G2 (c : Dev nD) : S50000x64.Idx → Elt Ideal .f32 :=
  Cert.Spec.conv (V c main_v27) (V c main_v37) (V c main_arg10) (V c main_arg9) (rowOf (V c main_v38))

theorem point2 (c : Dev nD) (t : Fin cfg2.N) (p : Fin 5000) (q : Fin 64) (r : Fin 50000) (hr : r.val = 5000 * t.val + p.val) :
    Gen.k2_pay1 (F := Ideal) (iblk2 V c 0 t) (iblk2 V c 1 t) (iblk2 V c 2 t) (iblk2 V c 3 t) (iblk2 V c 4 t) (ix2 p q)
      = G2 V c (ix2 r q) := by
  rw [k2_pay1_apply]
  have e0 : ∀ k : Fin 64, (iblk2 V c 0 t : Vec Ideal S5000x64 .f32) (ix2 p k) = (V c main_v27 : S50000x64.Idx → Elt Ideal .f32) (ix2 r k) :=
    fun k => iblk2_0_apply V c t (ix2 p k) (ix2 r k) hr rfl
  have e1 : ∀ k : Fin 64, (iblk2 V c 1 t : Vec Ideal S5000x64 .f32) (ix2 p k) = (V c main_v37 : S50000x64.Idx → Elt Ideal .f32) (ix2 r k) :=
    fun k => iblk2_1_apply V c t (ix2 p k) (ix2 r k) hr rfl
  simp only [e0, e1, iblk2_2_apply, iblk2_3_apply, iblk2_4_apply]
  rfl

theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 (F := Ideal) V c).after 5 t) = _
  rw [after2_5]
  unfold out2_5
  rw [View.canon_unit_zero hz]
  simp only [View.ld_unit_zero (S := S5000x64) hz, View.ld_unit_zero (S := S64x64) hz, View.ld_unit_zero (S := S1x64) hz]
  obtain ⟨-, -, -, -, -, -, -, -, -, -, e0, e1⟩ := idx_facts2 t
  funext y
  have hy0 : (y 0).val < 5000 := (y 0).isLt
  have hy1 : (y 1).val < 64 := (y 1).isLt
  have ht : t.val < 10 := t.isLt
  show Gen.k2_pay1 (F := Ideal) (iblk2 V c 0 t) (iblk2 V c 1 t) (iblk2 V c 2 t) (iblk2 V c 3 t) (iblk2 V c 4 t) ((cfg2.win 5).xinj (grid2.coords t) y)
      = G2 V c (((cfg2.win 5).blk t).view.emb y)
  have hx : (cfg2.win 5).xinj (grid2.coords t) y = ix2 (⟨(y 0).val, hy0⟩ : Fin 5000) (⟨(y 1).val, hy1⟩ : Fin 64) :=
    funext fun a => Fin.ext (by match a with | ⟨0, _⟩ => rfl | ⟨1, _⟩ => rfl)
  have he : ((cfg2.win 5).blk t).view.emb y = ix2 (⟨5000 * t.val + (y 0).val, by omega⟩ : Fin 50000) (⟨(y 1).val, hy1⟩ : Fin 64) := by
    funext a; apply Fin.ext
    match a with
    | ⟨0, _⟩ => show win2_5.index t (0 : Fin 2) * 5000 + 1 * (y 0).val = 5000 * t.val + (y 0).val; rw [e0]; omega
    | ⟨1, _⟩ => show win2_5.index t (1 : Fin 2) * 64 + 1 * (y 1).val = (y 1).val; rw [e1]; omega
  rw [hx, he]
  exact point2 V c t _ _ _ rfl

theorem mem_blk2 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v39).slice (win2_5.rect t)).set ↔ _
  rw [View.set_slice_whole, Rect.mem_set_unit]
  exact Iff.rfl

theorem cover2 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  refine ⟨⟨(i 0).val / 5000, by show (i 0).val / 5000 < 10; omega⟩, flush2_5 _, ?_⟩
  rw [mem_blk2]
  obtain ⟨-, -, -, -, -, -, -, -, -, -, e0, e1⟩ := idx_facts2 ⟨(i 0).val / 5000, by show (i 0).val / 5000 < 10; omega⟩
  intro a
  match a with
  | ⟨0, _⟩ =>
    show win2_5.index _ (0 : Fin 2) * 5000 ≤ (i 0).val ∧ (i 0).val < win2_5.index _ (0 : Fin 2) * 5000 + 5000
    rw [e0]; show (i 0).val / 5000 * 5000 ≤ (i 0).val ∧ (i 0).val < (i 0).val / 5000 * 5000 + 5000; omega
  | ⟨1, _⟩ =>
    show win2_5.index _ (1 : Fin 2) * 64 ≤ (i 1).val ∧ (i 1).val < win2_5.index _ (1 : Fin 2) * 64 + 64
    rw [e1]; omega

theorem conv2_final (c : Dev nD) :
    (dat2 (F := Ideal) V c).arrAt 5 cfg2.N
      = Cert.Spec.conv (V c main_v27) (V c main_v37) (V c main_arg10) (V c main_arg9) (rowOf (V c main_v38)) :=
  (dat2 (F := Ideal) V c).arrAt_eq_of_cover 5 (G2 V c) (fun t _ => flushed2_eq V c t) cover2

end Cert.KernelIdeal.ConvValue

end
-- ==== Proof.PoolMath.lean ====
import proofs.«424059_j74191265071300_3_alg».proof.Proof.Spec
import Idealize.ShloMosaic.PureOps.Ideal
import Idealize.ShloMosaic.Lib.ValueIdx
import Mathlib.Algebra.BigOperators.Fin
import Mathlib.Data.Fintype.BigOperators

noncomputable section

open scoped BigOperators

namespace Cert.PoolMath

open Idealize.ShloMosaic Idealize.ShloMosaic.ValueIdx

abbrev PadNodes : Shape := ⟨2, ![50176, 64]⟩

abbrev PadIds : Shape := ⟨2, ![1, 50176]⟩

def rowOf (t : Fin 14) (k : Fin 3584) : Fin 50176 := ⟨3584 * t.val + k.val, by omega⟩

def blockSum (bp : IVec PadIds 32) (hp : PadNodes.Idx → EReal) (t : Fin 14) (g : Fin 512) (c : Fin 64) : EReal :=
  ∑ k : Fin 3584, (if bp (ix2 (0 : Fin 1) (rowOf t k)) = BitVec.ofNat 32 g.val then (1 : EReal) else 0) * hp (ix2 (rowOf t k) c)

def accAt (bp : IVec PadIds 32) (hp : PadNodes.Idx → EReal) : (n : ℕ) → n < 14 → Fin 512 → Fin 64 → EReal
  | 0, h => fun g c => 0 + blockSum bp hp ⟨0, h⟩ g c
  | n + 1, h => fun g c => accAt bp hp n (Nat.lt_of_succ_lt h) g c + blockSum bp hp ⟨n + 1, h⟩ g c

def blockSumN (bp : IVec PadIds 32) (hp : PadNodes.Idx → EReal) (g : Fin 512) (c : Fin 64) (t : ℕ) : EReal :=
  if ht : t < 14 then blockSum bp hp ⟨t, ht⟩ g c else 0

theorem accAt_eq_range (bp : IVec PadIds 32) (hp : PadNodes.Idx → EReal) (g : Fin 512) (c : Fin 64) :
    ∀ (n : ℕ) (h : n < 14), accAt bp hp n h g c = ∑ t ∈ Finset.range (n + 1), blockSumN bp hp g c t
  | 0, h => by
    show 0 + blockSum bp hp ⟨0, h⟩ g c = _
    rw [zero_add, Finset.sum_range_one]
    unfold blockSumN
    rw [dif_pos h]
  | n + 1, h => by
    show accAt bp hp n (Nat.lt_of_succ_lt h) g c + blockSum bp hp ⟨n + 1, h⟩ g c = _
    rw [accAt_eq_range bp hp g c n (Nat.lt_of_succ_lt h), Finset.sum_range_succ _ (n + 1)]
    congr 1
    unfold blockSumN
    rw [dif_pos h]

theorem accAt_13 (bp : IVec PadIds 32) (hp : PadNodes.Idx → EReal) (g : Fin 512) (c : Fin 64) (h13 : 13 < 14) :
    accAt bp hp 13 h13 g c = ∑ t : Fin 14, blockSum bp hp t g c := by
  rw [accAt_eq_range bp hp g c 13 h13, ← Fin.sum_univ_eq_sum_range (blockSumN bp hp g c) 14]
  refine Finset.sum_congr rfl fun t _ => ?_
  unfold blockSumN
  rw [dif_pos t.isLt]

def rowEquiv : Fin 14 × Fin 3584 ≃ Fin 50176 where
  toFun x := rowOf x.1 x.2
  invFun n := (⟨n.val / 3584, by have := n.isLt; omega⟩, ⟨n.val % 3584, Nat.mod_lt _ (by norm_num)⟩)
  left_inv := by
    rintro ⟨t, k⟩
    have ht := t.isLt
    have hk := k.isLt
    refine Prod.ext (Fin.ext ?_) (Fin.ext ?_)
    · show (3584 * t.val + k.val) / 3584 = t.val
      omega
    · show (3584 * t.val + k.val) % 3584 = k.val
      omega
  right_inv := by
    intro n
    refine Fin.ext ?_
    show 3584 * (n.val / 3584) + n.val % 3584 = n.val
    omega

theorem sum_blocks (F : Fin 50176 → EReal) : (∑ t : Fin 14, ∑ k : Fin 3584, F (rowOf t k)) = ∑ n : Fin 50176, F n := by
  rw [← Fintype.sum_prod_type' (fun t k => F (rowOf t k))]
  exact Equiv.sum_comp rowEquiv F

theorem word_eq_iff (w : BitVec 32) (g : ℕ) (hg : g < 512) : w = BitVec.ofNat 32 g ↔ w.toInt = (g : ℤ) := by
  have hw : w.toNat < 4294967296 := w.isLt
  rw [BitVec.toInt_eq_toNat_cond]
  constructor
  · rintro rfl
    simp only [BitVec.toNat_ofNat]
    split <;> omega
  · intro h
    apply BitVec.eq_of_toNat_eq
    rw [BitVec.toNat_ofNat]
    split at h <;> omega

theorem accAt_last (batch : IVec Cert.Spec.Ids 32) (h : Cert.Spec.Nodes.Idx → EReal) (bp : IVec PadIds 32) (hp : PadNodes.Idx → EReal)
    (hbp : ∀ n : Fin 50176, bp (ix2 (0 : Fin 1) n) = if hn : n.val < 50000 then batch (ix1 (⟨n.val, hn⟩ : Fin 50000)) else 511#32)
    (hhp : ∀ (n : Fin 50176) (c : Fin 64), hp (ix2 n c) = if hn : n.val < 50000 then h (ix2 (⟨n.val, hn⟩ : Fin 50000) c) else 0)
    (g : Fin 512) (c : Fin 64) : accAt bp hp 13 (by norm_num) g c = Cert.Spec.sumAt h batch g.val c := by
  rw [accAt_13]
  unfold blockSum
  rw [sum_blocks (fun n => (if bp (ix2 (0 : Fin 1) n) = BitVec.ofNat 32 g.val then (1 : EReal) else 0) * hp (ix2 n c))]

  rw [Fin.sum_univ_add (a := 50000) (b := 176) (fun n : Fin 50176 => (if bp (ix2 (0 : Fin 1) n) = BitVec.ofNat 32 g.val then (1 : EReal) else 0) * hp (ix2 n c))]
  have hpad : (∑ i : Fin 176, (if bp (ix2 (0 : Fin 1) (Fin.natAdd 50000 i)) = BitVec.ofNat 32 g.val then (1 : EReal) else 0) * hp (ix2 (Fin.natAdd 50000 i) c)) = 0 := by
    refine Finset.sum_eq_zero fun i _ => ?_
    rw [hhp, dif_neg (by show ¬(50000 + i.val < 50000); omega), mul_zero]
  rw [hpad, add_zero]
  unfold Cert.Spec.sumAt Cert.Spec.members
  rw [Finset.sum_filter]
  refine Finset.sum_congr rfl fun e _ => ?_
  have he : (Fin.castAdd 176 e).val < 50000 := e.isLt
  rw [hbp, hhp, dif_pos he, dif_pos he]
  show (if batch (ix1 e) = BitVec.ofNat 32 g.val then (1 : EReal) else 0) * h (ix2 e c) = _
  by_cases hw : batch (ix1 e) = BitVec.ofNat 32 g.val
  · rw [if_pos hw, if_pos ((word_eq_iff _ g.val g.isLt).1 hw), one_mul]
  · rw [if_neg hw, if_neg (fun h' => hw ((word_eq_iff _ g.val g.isLt).2 h')), zero_mul]

end Cert.PoolMath

end
-- ==== Proof.KiPayPool.lean ====
import proofs.«424059_j74191265071300_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.KernelIdeal.Payloads

open Idealize.ShloMosaic Idealize.ShloMosaic.ValueIdx Cert.KernelIdeal

theorem mm_apply_of_axes {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (A : FVec Ideal ⟨2, ![M, K]⟩ φ₁) (B : FVec Ideal ⟨2, ![K, N]⟩ φ₂) (p : Fin M) (q : Fin N) :
    matmul D none A B (constant (F := Ideal) ⟨2, ![M, N]⟩ .f32 0x00000000#32) (ix2 p q)
      = ∑ k : Fin K, A (ix2 p k) * B (ix2 k q) := by
  show FloatOps.matmul _ _ _ _ _ _ = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact l0 _ _
    | ⟨1, _⟩ => exact (l1 _ _).trans hk)
  have er : D.rhsIdx (ix2 p q) ((contrEquiv1 D K hr hs).symm k) = ix2 k q := funext fun a => Fin.ext (by
    match a with
    | ⟨0, _⟩ => exact (r0 _ _).trans hk
    | ⟨1, _⟩ => exact r1 _ _)
  rw [el, er]

theorem lhs_hot_0 (i : S512x64.Idx) (q : dot_S512x3584_S3584x64_S512x64_1_0_0_1_n_n.contr.Idx) :
    (dot_S512x3584_S3584x64_S512x64_1_0_0_1_n_n.lhsIdx i q 0).val = (i 0).val := by
  unfold DotDims.lhsIdx
  rw [dif_neg (show ¬(0 : Fin S512x3584.rank) ∈ dot_S512x3584_S3584x64_S512x64_1_0_0_1_n_n.lhsBatch by decide), dif_pos (show (0 : Fin S512x3584.rank) ∈ dot_S512x3584_S3584x64_S512x64_1_0_0_1_n_n.lhsNonContracting by decide)]
  rfl
theorem lhs_hot_1 (i : S512x64.Idx) (q : dot_S512x3584_S3584x64_S512x64_1_0_0_1_n_n.contr.Idx) :
    (dot_S512x3584_S3584x64_S512x64_1_0_0_1_n_n.lhsIdx i q 1).val = (q ⟨0, by decide⟩).val :=
  dot_S512x3584_S3584x64_S512x64_1_0_0_1_n_n.lhsIdx_val_of_single rfl i q
theorem rhs_hot_0 (i : S512x64.Idx) (q : dot_S512x3584_S3584x64_S512x64_1_0_0_1_n_n.contr.Idx) :
    (dot_S512x3584_S3584x64_S512x64_1_0_0_1_n_n.rhsIdx i q 0).val = (q ⟨0, by decide⟩).val :=
  dot_S512x3584_S3584x64_S512x64_1_0_0_1_n_n.rhsIdx_val_of_single rfl i q
theorem rhs_hot_1 (i : S512x64.Idx) (q : dot_S512x3584_S3584x64_S512x64_1_0_0_1_n_n.contr.Idx) :
    (dot_S512x3584_S3584x64_S512x64_1_0_0_1_n_n.rhsIdx i q 1).val = (i 1).val := by
  unfold DotDims.rhsIdx
  rw [dif_neg (show ¬(1 : Fin S3584x64.rank) ∈ dot_S512x3584_S3584x64_S512x64_1_0_0_1_n_n.rhsBatch by decide), dif_pos (show (1 : Fin S3584x64.rank) ∈ dot_S512x3584_S3584x64_S512x64_1_0_0_1_n_n.rhsNonContracting by decide)]
  rfl

theorem mm_hot_apply {φ₁ φ₂ : FTy} (A : FVec Ideal S512x3584 φ₁) (B : FVec Ideal S3584x64 φ₂) (g : Fin 512) (c : Fin 64) :
    matmul dot_S512x3584_S3584x64_S512x64_1_0_0_1_n_n none A B (constant (F := Ideal) S512x64 .f32 0x00000000#32) (ix2 g c)
      = ∑ k : Fin 3584, A (ix2 g k) * B (ix2 k c) :=
  mm_apply_of_axes dot_S512x3584_S3584x64_S512x64_1_0_0_1_n_n rfl rfl lhs_hot_0 lhs_hot_1 rhs_hot_0 rhs_hot_1 A B g c

theorem lhs_hid_0 (i : S512x64.Idx) (q : dot_S512x64_S64x64_S512x64_1_0_0_1_n_n.contr.Idx) :
    (dot_S512x64_S64x64_S512x64_1_0_0_1_n_n.lhsIdx i q 0).val = (i 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
theorem lhs_hid_1 (i : S512x64.Idx) (q : dot_S512x64_S64x64_S512x64_1_0_0_1_n_n.contr.Idx) :
    (dot_S512x64_S64x64_S512x64_1_0_0_1_n_n.lhsIdx i q 1).val = (q ⟨0, by decide⟩).val :=
  dot_S512x64_S64x64_S512x64_1_0_0_1_n_n.lhsIdx_val_of_single rfl i q
theorem rhs_hid_0 (i : S512x64.Idx) (q : dot_S512x64_S64x64_S512x64_1_0_0_1_n_n.contr.Idx) :
    (dot_S512x64_S64x64_S512x64_1_0_0_1_n_n.rhsIdx i q 0).val = (q ⟨0, by decide⟩).val :=
  dot_S512x64_S64x64_S512x64_1_0_0_1_n_n.rhsIdx_val_of_single rfl i q
theorem rhs_hid_1 (i : S512x64.Idx) (q : dot_S512x64_S64x64_S512x64_1_0_0_1_n_n.contr.Idx) :
    (dot_S512x64_S64x64_S512x64_1_0_0_1_n_n.rhsIdx i q 1).val = (i 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl

theorem mm_hid_apply {φ₁ φ₂ : FTy} (A : FVec Ideal S512x64 φ₁) (B : FVec Ideal S64x64 φ₂) (g : Fin 512) (c : Fin 64) :
    matmul dot_S512x64_S64x64_S512x64_1_0_0_1_n_n none A B (constant (F := Ideal) S512x64 .f32 0x00000000#32) (ix2 g c)
      = ∑ k : Fin 64, A (ix2 g k) * B (ix2 k c) :=
  mm_apply_of_axes dot_S512x64_S64x64_S512x64_1_0_0_1_n_n rfl rfl lhs_hid_0 lhs_hid_1 rhs_hid_0 rhs_hid_1 A B g c

theorem lhs_out_0 (i : S512x2.Idx) (q : dot_S512x64_S64x2_S512x2_1_0_0_1_n_n.contr.Idx) :
    (dot_S512x64_S64x2_S512x2_1_0_0_1_n_n.lhsIdx i q 0).val = (i 0).val := by
  unfold DotDims.lhsIdx
  rw [dif_neg (show ¬(0 : Fin S512x64.rank) ∈ dot_S512x64_S64x2_S512x2_1_0_0_1_n_n.lhsBatch by decide), dif_pos (show (0 : Fin S512x64.rank) ∈ dot_S512x64_S64x2_S512x2_1_0_0_1_n_n.lhsNonContracting by decide)]
  rfl
theorem lhs_out_1 (i : S512x2.Idx) (q : dot_S512x64_S64x2_S512x2_1_0_0_1_n_n.contr.Idx) :
    (dot_S512x64_S64x2_S512x2_1_0_0_1_n_n.lhsIdx i q 1).val = (q ⟨0, by decide⟩).val :=
  dot_S512x64_S64x2_S512x2_1_0_0_1_n_n.lhsIdx_val_of_single rfl i q
theorem rhs_out_0 (i : S512x2.Idx) (q : dot_S512x64_S64x2_S512x2_1_0_0_1_n_n.contr.Idx) :
    (dot_S512x64_S64x2_S512x2_1_0_0_1_n_n.rhsIdx i q 0).val = (q ⟨0, by decide⟩).val :=
  dot_S512x64_S64x2_S512x2_1_0_0_1_n_n.rhsIdx_val_of_single rfl i q
theorem rhs_out_1 (i : S512x2.Idx) (q : dot_S512x64_S64x2_S512x2_1_0_0_1_n_n.contr.Idx) :
    (dot_S512x64_S64x2_S512x2_1_0_0_1_n_n.rhsIdx i q 1).val = (i 1).val := by
  unfold DotDims.rhsIdx
  rw [dif_neg (show ¬(1 : Fin S64x2.rank) ∈ dot_S512x64_S64x2_S512x2_1_0_0_1_n_n.rhsBatch by decide), dif_pos (show (1 : Fin S64x2.rank) ∈ dot_S512x64_S64x2_S512x2_1_0_0_1_n_n.rhsNonContracting by decide)]
  rfl

theorem mm_out_apply {φ₁ φ₂ : FTy} (A : FVec Ideal S512x64 φ₁) (B : FVec Ideal S64x2 φ₂) (g : Fin 512) (o : Fin 2) :
    matmul dot_S512x64_S64x2_S512x2_1_0_0_1_n_n none A B (constant (F := Ideal) S512x2 .f32 0x00000000#32) (ix2 g o)
      = ∑ k : Fin 64, A (ix2 g k) * B (ix2 k o) :=
  mm_apply_of_axes dot_S512x64_S64x2_S512x2_1_0_0_1_n_n rfl rfl lhs_out_0 lhs_out_1 rhs_out_0 rhs_out_1 A B g o

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem cmpi_apply {s : Shape} {w : ℕ} (p : CmpIPredicate) (a b : IVec s w) (i : s.Idx) : cmpi p a b i = IntOp.cmpi p (a i) (b i) := rfl

theorem onehot_word (x y : BitVec 32) :
    (FloatOps.sitofp (F := Ideal) .f32 ((IntOp.cmpi .eq x y).setWidth 32) : EReal) = if y = x then (1 : EReal) else 0 := by
  show ((((IntOp.cmpi .eq x y).setWidth 32).toInt : ℝ) : EReal) = _
  by_cases h : y = x
  · subst h
    rw [if_pos rfl]
    have e : IntOp.cmpi .eq y y = 1#1 := by simp [IntOp.cmpi]
    rw [e]
    norm_num
  · rw [if_neg h]
    have e : IntOp.cmpi .eq x y = 0#1 := by
      have : (x == y) = false := by simpa using fun h' => h h'.symm
      simp [IntOp.cmpi, this]
    rw [e]
    norm_num

theorem k3_pay1_apply (g : Fin 512) (c : Fin 64) : Gen.k3_pay1 (F := Ideal) (ix2 g c) = 0 := by
  unfold Gen.k3_pay1
  rw [shapeCast_self, broadcast_apply]
  exact Ideal.ofBits_zero_f32

theorem k3_pay2_apply (v4 : Vec Ideal S1x3584 .i32) (v11 : Vec Ideal S3584x64 .f32) (v14 : Vec Ideal S512x64 .f32) (g : Fin 512) (c : Fin 64) :
    Gen.k3_pay2 (F := Ideal) v4 v11 v14 (ix2 g c)
      = v14 (ix2 g c) + ∑ k : Fin 3584, (if v4 (ix2 (0 : Fin 1) k) = BitVec.ofNat 32 g.val then (1 : EReal) else 0) * v11 (ix2 k c) := by
  unfold Gen.k3_pay2
  rw [shapeCast_self, addf_apply, mm_hot_apply]
  refine congrArg (v14 (ix2 g c) + ·) (Finset.sum_congr rfl fun k _ => ?_)
  rw [shapeCast_self, shapeCast_self]
  refine congrArg (· * v11 (ix2 k c)) ?_

  rw [truncf_apply, sitofp_apply, extui_apply, cmpi_apply, iota_single_apply, broadcastTo_1b_ab_apply]
  exact onehot_word _ _

theorem pooled_apply (v23 : FVec Ideal S1x512 .f32) (v28 : FVec Ideal S512x64 .f32) (hT : S1x512.Transposes [1, 0] S512x1)
    (hB : S512x1.Broadcasts S512x64) (g : Fin 512) (k : Fin 64) :
    divf v28 (broadcastTo S512x64 (maximumf (transpose S512x1 [1, 0] v23 hT) (broadcast S512x1 (Scalar.ofBits (F := Ideal) .f32 0x3F800000#32))) hB) (ix2 g k)
      = Ideal.div (v28 (ix2 g k)) (max (v23 (ix2 (0 : Fin 1) g)) 1) := by
  rw [divf_apply, broadcastTo_a1_ab_apply, maximumf_apply, transpose_ix2_apply, broadcast_apply]
  exact congrArg (fun t => Ideal.div (v28 (ix2 g k)) (max (v23 (ix2 (0 : Fin 1) g)) t)) Ideal.ofBits_one_f32

theorem k3_pay3_apply (v23 : Vec Ideal S1x512 .f32) (v28 : Vec Ideal S512x64 .f32) (v32 : Vec Ideal S64x64 .f32) (v35 : Vec Ideal S1x64 .f32)
    (v40 : Vec Ideal S64x2 .f32) (v43 : Vec Ideal S1x2 .f32) (g : Fin 512) (o : Fin 2) :
    Gen.k3_pay3 (F := Ideal) v23 v28 v32 v35 v40 v43 (ix2 g o)
      = (∑ k : Fin 64, ((∑ k' : Fin 64, Ideal.div (v28 (ix2 g k')) (max (v23 (ix2 (0 : Fin 1) g)) 1) * v32 (ix2 k' k)) + v35 (ix2 (0 : Fin 1) k)) * v40 (ix2 k o))
          + v43 (ix2 (0 : Fin 1) o) := by
  unfold Gen.k3_pay3
  simp only [shapeCast_self]
  rw [addf_apply, mm_out_apply, broadcastTo_1b_ab_apply]
  refine congrArg (· + v43 (ix2 (0 : Fin 1) o)) (Finset.sum_congr rfl fun k _ => ?_)
  refine congrArg (· * v40 (ix2 k o)) ?_
  rw [truncf_apply, addf_apply, mm_hid_apply, broadcastTo_1b_ab_apply]
  refine congrArg (· + v35 (ix2 (0 : Fin 1) k)) (Finset.sum_congr rfl fun k' _ => ?_)
  refine congrArg (· * v32 (ix2 k' k)) ?_
  rw [truncf_apply]
  exact pooled_apply v23 v28 _ _ g k'

end Cert.KernelIdeal.Payloads

end
-- ==== Proof.KiPoolFinal.lean ====
import proofs.«424059_j74191265071300_3_alg».proof.Proof.KiPool
import Idealize.ShloMosaic.Lib.Pipeline.Value
import proofs.«424059_j74191265071300_3_alg».proof.Proof.PoolMath
import proofs.«424059_j74191265071300_3_alg».proof.Proof.KiPayPool

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx Cert.PoolMath Cert.KernelIdeal.Payloads

variable (V : (c : Dev nD) → (b : Ref sig .tc) → Buf (Elt Ideal) ((c : Thread nD τ).loc b)) (c : Dev nD)

abbrev pt3 (t : Fin cfg3.N) : Fin 14 := ⟨t.val, lt_of_lt_of_eq t.isLt (show cfg3.N = 14 from N_3)⟩

theorem idx3_0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)

theorem idx3_1 : ∀ t : Fin cfg3.N, win3_1.index t (0 : Fin 2) = 0 ∧ win3_1.index t (1 : Fin 2) = t.val :=
  (by decide +kernel : ∀ t : Fin grid3.N, win3_1.index t (0 : Fin 2) = 0 ∧ win3_1.index t (1 : Fin 2) = t.val)

theorem idx3_2 : ∀ t : Fin cfg3.N, win3_2.index t (0 : Fin 2) = 0 ∧ win3_2.index t (1 : Fin 2) = 0 :=
  (by decide +kernel : ∀ t : Fin grid3.N, win3_2.index t (0 : Fin 2) = 0 ∧ win3_2.index t (1 : Fin 2) = 0)
theorem idx3_3 : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)
theorem idx3_4 : ∀ t : Fin cfg3.N, win3_4.index t (0 : Fin 2) = 0 ∧ win3_4.index t (1 : Fin 2) = 0 :=
  (by decide +kernel : ∀ t : Fin grid3.N, win3_4.index t (0 : Fin 2) = 0 ∧ win3_4.index t (1 : Fin 2) = 0)
theorem idx3_5 : ∀ t : Fin cfg3.N, win3_5.index t (0 : Fin 2) = 0 ∧ win3_5.index t (1 : Fin 2) = 0 :=
  (by decide +kernel : ∀ t : Fin grid3.N, win3_5.index t (0 : Fin 2) = 0 ∧ win3_5.index t (1 : Fin 2) = 0)
theorem idx3_6 : ∀ t : Fin cfg3.N, win3_6.index t (0 : Fin 2) = 0 ∧ win3_6.index t (1 : Fin 2) = 0 :=
  (by decide +kernel : ∀ t : Fin grid3.N, win3_6.index t (0 : Fin 2) = 0 ∧ win3_6.index t (1 : Fin 2) = 0)
theorem iblk3_0_apply (t : Fin cfg3.N) (k : Fin 3584) (f : Fin 64) :
    iblk3 V c 0 t (ix2 k f) = V c main_v45 (ix2 (rowOf (pt3 t) k) f) := by
  show V c main_v45 (((cfg3.win 0).blk t).view.emb (ix2 k f)) = _
  refine congrArg (V c main_v45) ?_
  obtain ⟨e0, e1⟩ := idx3_0 t
  funext a; apply Fin.ext
  match a with
  | ⟨0, _⟩ => show win3_0.index t (0 : Fin 2) * 3584 + 1 * k.val = 3584 * t.val + k.val; rw [e0]; omega
  | ⟨1, _⟩ => show win3_0.index t (1 : Fin 2) * 64 + 1 * f.val = f.val; rw [e1]; omega

theorem iblk3_1_apply (t : Fin cfg3.N) (k : Fin 3584) :
    iblk3 V c 1 t (ix2 (0 : Fin 1) k) = V c main_v47 (ix2 (0 : Fin 1) (rowOf (pt3 t) k)) := by
  show V c main_v47 (((cfg3.win 1).blk t).view.emb (ix2 (0 : Fin 1) k)) = _
  refine congrArg (V c main_v47) ?_
  obtain ⟨e0, e1⟩ := idx3_1 t
  funext a; apply Fin.ext
  match a with
  | ⟨0, _⟩ => show win3_1.index t (0 : Fin 2) * 1 + 1 * 0 = 0; rw [e0]
  | ⟨1, _⟩ => show win3_1.index t (1 : Fin 2) * 3584 + 1 * k.val = 3584 * t.val + k.val; rw [e1]; omega

theorem iblk3_2_apply (t : Fin cfg3.N) (a : Fin 1) (b : Fin 512) :
    iblk3 V c 2 t (ix2 a b) = V c main_v44 (ix2 a b) := by
  show V c main_v44 (((cfg3.win 2).blk t).view.emb (ix2 a b)) = _
  refine congrArg (V c main_v44) ?_
  obtain ⟨e0, e1⟩ := idx3_2 t
  funext d; apply Fin.ext
  match d with
  | ⟨0, _⟩ => show win3_2.index t (0 : Fin 2) * 1 + 1 * a.val = a.val; rw [e0]; omega
  | ⟨1, _⟩ => show win3_2.index t (1 : Fin 2) * 512 + 1 * b.val = b.val; rw [e1]; omega

theorem iblk3_3_apply (t : Fin cfg3.N) (a : Fin 64) (b : Fin 64) :
    iblk3 V c 3 t (ix2 a b) = V c main_arg12 (ix2 a b) := by
  show V c main_arg12 (((cfg3.win 3).blk t).view.emb (ix2 a b)) = _
  refine congrArg (V c main_arg12) ?_
  obtain ⟨e0, e1⟩ := idx3_3 t
  funext d; apply Fin.ext
  match d with
  | ⟨0, _⟩ => show win3_3.index t (0 : Fin 2) * 64 + 1 * a.val = a.val; rw [e0]; omega
  | ⟨1, _⟩ => show win3_3.index t (1 : Fin 2) * 64 + 1 * b.val = b.val; rw [e1]; omega

theorem iblk3_4_apply (t : Fin cfg3.N) (a : Fin 1) (b : Fin 64) :
    iblk3 V c 4 t (ix2 a b) = V c main_v48 (ix2 a b) := by
  show V c main_v48 (((cfg3.win 4).blk t).view.emb (ix2 a b)) = _
  refine congrArg (V c main_v48) ?_
  obtain ⟨e0, e1⟩ := idx3_4 t
  funext d; apply Fin.ext
  match d with
  | ⟨0, _⟩ => show win3_4.index t (0 : Fin 2) * 1 + 1 * a.val = a.val; rw [e0]; omega
  | ⟨1, _⟩ => show win3_4.index t (1 : Fin 2) * 64 + 1 * b.val = b.val; rw [e1]; omega

theorem iblk3_5_apply (t : Fin cfg3.N) (a : Fin 64) (b : Fin 2) :
    iblk3 V c 5 t (ix2 a b) = V c main_arg14 (ix2 a b) := by
  show V c main_arg14 (((cfg3.win 5).blk t).view.emb (ix2 a b)) = _
  refine congrArg (V c main_arg14) ?_
  obtain ⟨e0, e1⟩ := idx3_5 t
  funext d; apply Fin.ext
  match d with
  | ⟨0, _⟩ => show win3_5.index t (0 : Fin 2) * 64 + 1 * a.val = a.val; rw [e0]; omega
  | ⟨1, _⟩ => show win3_5.index t (1 : Fin 2) * 2 + 1 * b.val = b.val; rw [e1]; omega

theorem iblk3_6_apply (t : Fin cfg3.N) (a : Fin 1) (b : Fin 2) :
    iblk3 V c 6 t (ix2 a b) = V c main_v49 (ix2 a b) := by
  show V c main_v49 (((cfg3.win 6).blk t).view.emb (ix2 a b)) = _
  refine congrArg (V c main_v49) ?_
  obtain ⟨e0, e1⟩ := idx3_6 t
  funext d; apply Fin.ext
  match d with
  | ⟨0, _⟩ => show win3_6.index t (0 : Fin 2) * 1 + 1 * a.val = a.val; rw [e0]; omega
  | ⟨1, _⟩ => show win3_6.index t (1 : Fin 2) * 2 + 1 * b.val = b.val; rw [e1]; omega

theorem acc3_apply : ∀ (n : ℕ) (h : n < cfg3.N) (g : Fin 512) (f : Fin 64),
    acc3 V c n h (ix2 g f) = accAt (V c main_v47) (V c main_v45) n (lt_of_lt_of_eq h (show cfg3.N = 14 from N_3)) g f
  | 0, h, g, f => by
    rw [acc3, k3_pay2_apply, k3_pay1_apply]
    simp only [iblk3_0_apply, iblk3_1_apply]
    rfl
  | n + 1, h, g, f => by
    rw [acc3, k3_pay2_apply, acc3_apply n (Nat.lt_of_succ_lt h) g f]
    simp only [iblk3_0_apply, iblk3_1_apply]
    rfl

abbrev tL : Fin cfg3.N := t3_13

abbrev result3 : Buf (Elt Ideal) ((c : Thread nD τ).loc main_v50) := fin3 V c tL

theorem flushed3_7_eq (t : Fin cfg3.N) (hf : (cfg3.win 7).flush t = true) :
    (dat3 V c).flushed 7 t = ((cfg3.win 7).blk t).view.read (Elt Ideal) (result3 V c) := by
  have hN : cfg3.N = 14 := N_3
  have h13 : t.val = 13 := by have := (flush3_7 t).mp hf; have := t.isLt; omega
  obtain rfl : t = tL := Fin.ext h13
  show (cfg3.win 7).cut (grid3.coords tL) ((dat3 V c).after 7 tL) = _
  rw [after3_7]
  have hz' : (fun a => win3_7.index tL a * main_v50.ty.shape.size a) = fun _ => 0 := funext fun a => by fin_cases a <;> decide +kernel
  exact (Memref.read_access_unit_zero (Elt Ideal) main_v50 hz' (fun a => by rw [congrFun hz' a]; simp) (result3 V c)).symm

theorem final3_7 : (dat3 V c).arrAt 7 cfg3.N = result3 V c :=
  (dat3 V c).arrAt_eq_of_cover 7 (result3 V c) (flushed3_7_eq V c) fun i =>
    ⟨tL, (flush3_7 tL).mpr rfl, by
      show i ∈ ((View.whole main_v50).slice (win3_7.rect tL)).set
      rw [View.set_slice_whole, Rect.mem_set_unit]
      intro a
      have h0 : (i 0 : Nat) < 512 := (i 0).isLt
      have h1 : (i 1 : Nat) < 2 := (i 1).isLt
      match a with
      | ⟨0, _⟩ => show win3_7.index tL 0 * win3_7.size 0 ≤ (i 0 : Nat) ∧ (i 0 : Nat) < win3_7.index tL 0 * win3_7.size 0 + win3_7.xsize (grid3.coords tL) 0
                  rw [show win3_7.index tL 0 * win3_7.size 0 = 0 from by decide +kernel, show win3_7.xsize (grid3.coords tL) 0 = 512 from by decide +kernel]; omega
      | ⟨1, _⟩ => show win3_7.index tL 1 * win3_7.size 1 ≤ (i 1 : Nat) ∧ (i 1 : Nat) < win3_7.index tL 1 * win3_7.size 1 + win3_7.xsize (grid3.coords tL) 1
                  rw [show win3_7.index tL 1 * win3_7.size 1 = 0 from by decide +kernel, show win3_7.xsize (grid3.coords tL) 1 = 2 from by decide +kernel]; omega⟩

theorem pool_final (g : Fin 512) (o : Fin 2) :
    (dat3 (F := Ideal) V c).arrAt 7 cfg3.N (ix2 g o)
      = (∑ k : Fin 64, ((∑ k' : Fin 64, Ideal.div (accAt (V c main_v47) (V c main_v45) 13 (by norm_num) g k') (max (V c main_v44 (ix2 (0 : Fin 1) g)) 1) * V c main_arg12 (ix2 k' k))
            + V c main_v48 (ix2 (0 : Fin 1) k)) * V c main_arg14 (ix2 k o))
          + V c main_v49 (ix2 (0 : Fin 1) o) := by
  rw [final3_7]
  show fin3 V c tL (ix2 g o) = _
  unfold fin3
  rw [k3_pay3_apply]
  simp only [acc3_apply, iblk3_2_apply, iblk3_3_apply, iblk3_4_apply, iblk3_5_apply, iblk3_6_apply]
  rfl

end Cert.KernelIdeal.Frame

end
-- ==== Proof.LibScatterAddVec.lean ====
import Idealize.ShloMosaic.PureOps.Ideal
import Idealize.ShloMosaic.PureOps.Contract
import Idealize.ShloMosaic.Lib.ValueIdx

open scoped BigOperators

namespace Idealize.ShloMosaic.ScatterAddVec

open Idealize.ShloMosaic Idealize.ShloMosaic.ValueIdx

abbrev vecAddDims (N K : Nat)
    (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

section
variable {N K w : Nat} (wf : ScatterDims.WF ⟨1, ![N]⟩ ⟨2, ![K, 1]⟩ ⟨1, ![K]⟩ [] [0] [0] 1)
  (idx : IVec ⟨2, ![K, 1]⟩ w) (e : Fin K)

theorem start_eq : (vecAddDims N K wf).start (ix1 e) idx (0 : Fin 1) = (idx (ix2 e (0 : Fin 1))).toInt := by
  unfold ScatterDims.start
  rw [dif_pos (show (0 : Fin 1) ∈ (vecAddDims N K wf).scatterDimsToOperandDims from List.mem_singleton.mpr rfl)]
  have hsi : (vecAddDims N K wf).siIdx (ix1 e) ⟨List.idxOf (0 : Fin 1) (vecAddDims N K wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

theorem window_eq : (vecAddDims N K wf).window (ix1 e) (0 : Fin 1) = 0 := by
  unfold ScatterDims.window
  have hk : (vecAddDims N K wf).sKept = [] := rfl
  rw [dif_neg (show ¬ (0 : Fin 1) ∈ (vecAddDims N K wf).sKept from hk ▸ List.not_mem_nil)]

theorem resultIdx?_eq_some_iff (i : Fin N) :
    (vecAddDims N K wf).resultIdx? (ix1 e) idx = some (ix1 i) ↔ (idx (ix2 e (0 : Fin 1))).toInt = (i.val : Int) := by
  have hi : i.val < N := i.isLt
  unfold ScatterDims.resultIdx?
  split
  · rename_i h
    have h0 := h 0
    rw [start_eq, window_eq] at h0
    rw [Option.some.injEq]
    constructor
    · intro heq
      have e0 := congrArg (fun f : (⟨1, ![N]⟩ : Shape).Idx => (f (0 : Fin 1)).val) heq
      simp only [start_eq, window_eq] at e0
      have : ((idx (ix2 e (0 : Fin 1))).toInt + ((0 : Nat) : Int)).toNat = i.val := e0
      omega
    · intro hrow
      funext a; refine Fin.ext ?_
      match a with
      | ⟨0, _⟩ =>
        show ((vecAddDims N K wf).start (ix1 e) idx (0 : Fin 1) + (vecAddDims N K wf).window (ix1 e) (0 : Fin 1)).toNat = i.val
        rw [start_eq, window_eq]; omega
  · rename_i h
    constructor
    · intro heq; exact absurd heq (by simp)
    · intro hrow
      exfalso; apply h; intro a
      match a with
      | ⟨0, _⟩ =>
        show 0 ≤ (vecAddDims N K wf).start (ix1 e) idx (0 : Fin 1) + (vecAddDims N K wf).window (ix1 e) (0 : Fin 1)
          ∧ (vecAddDims N K wf).start (ix1 e) idx (0 : Fin 1) + (vecAddDims N K wf).window (ix1 e) (0 : Fin 1) < (N : Int)
        rw [start_eq, window_eq]; omega

end

theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun a => rfl⟩ _ _ fun i => ?_
  exact congrArg f (eq_ix1 i)

theorem hostScatterAdd_vecAddDims_apply {N K w : Nat}
    (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal)
    (i : Fin N) :
    Ideal.hostScatterAdd (vecAddDims N K wf) x idx upd (ix1 i)
      = x (ix1 i) + ∑ e ∈ Finset.univ.filter (fun e : Fin K => (idx (ix2 e (0 : Fin 1))).toInt = (i.val : Int)), upd (ix1 e) := by
  unfold Ideal.hostScatterAdd
  congr 1
  rw [Finset.sum_filter, sum_idx1, Finset.sum_filter]
  refine Finset.sum_congr rfl fun e _ => ?_
  by_cases ht : (idx (ix2 e (0 : Fin 1))).toInt = (i.val : Int)
  · rw [if_pos ht, if_pos ((resultIdx?_eq_some_iff wf idx e i).mpr ht)]
  · rw [if_neg ht, if_neg (fun h => ht ((resultIdx?_eq_some_iff wf idx e i).mp h))]

theorem hostScatterAdd_vec_apply {N K w : Nat} (d : ScatterDims ⟨1, ![N]⟩ ⟨2, ![K, 1]⟩ ⟨1, ![K]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![K, 1]⟩ w) (upd : (⟨1, ![K]⟩ : Shape).Idx → EReal)
    (i : Fin N) :
    Ideal.hostScatterAdd d x idx upd (ix1 i)
      = x (ix1 i) + ∑ e ∈ Finset.univ.filter (fun e : Fin K => (idx (ix2 e (0 : Fin 1))).toInt = (i.val : Int)), upd (ix1 e) := by
  obtain ⟨uw, iw, sd, iv, wf⟩ := d
  simp only at hu hi hs hv
  subst hu hi hs hv
  exact hostScatterAdd_vecAddDims_apply wf x idx upd i

end Idealize.ShloMosaic.ScatterAddVec
-- ==== Proof.KiHostOps.lean ====
import proofs.«424059_j74191265071300_3_alg».proof.Proof.Gen.KernelIdeal.Launch
import proofs.«424059_j74191265071300_3_alg».proof.Proof.Spec
import proofs.«424059_j74191265071300_3_alg».proof.Proof.LibScatterAddVec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.KernelIdeal.HostOps

open Cert.KernelIdeal Cert.KernelIdeal.Gen Idealize.ShloMosaic Idealize.ShloMosaic.ValueIdx Idealize.ShloMosaic.TcCoe

variable (W : Valuation τ sig (Elt Ideal))

def srcK (ei : IVec S2x800000 32) : IVec S800000 32 :=
  shapeCast _ (extractStridedSlice S1x800000 ![0, 0] ei slices_S2x800000_S1x800000_0_0) shapeCasts_S1x800000_S800000

def dstK (ei : IVec S2x800000 32) : IVec S800000 32 :=
  shapeCast _ (extractStridedSlice S1x800000 ![1, 0] ei slices_S2x800000_S1x800000_1_0) shapeCasts_S1x800000_S800000

def aggGen (src dst : IVec S800000 32) (h : FVec Ideal S50000x64 .f32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

def aggK (ei : IVec S2x800000 32) (h : FVec Ideal S50000x64 .f32) : FVec Ideal S50000x64 .f32 := aggGen (srcK ei) (dstK ei) h

abbrev arg (m : (ℓ : Loc nD τ sig) → Buf (Elt Ideal) ℓ) (c : Dev nD) (b : Ref sig .tc) : Buf (Elt Ideal) ((c : Thread nD τ).loc b) :=
  m ((c : Thread nD τ).loc b)

/-- The network's value on core `c`'s sixteen arguments. -/
def result (m : (ℓ : Loc nD τ sig) → Buf (Elt Ideal) ℓ) (c : Dev nD) : Cert.Spec.Res.Idx → EReal :=
  Cert.Spec.result (aggK (arg m c main_arg1)) (arg m c main_arg0) (arg m c main_arg2) (arg m c main_arg3) (arg m c main_arg4) (arg m c main_arg5)
    (arg m c main_arg6) (arg m c main_arg7) (arg m c main_arg8) (arg m c main_arg9) (arg m c main_arg10) (arg m c main_arg11)
    (arg m c main_arg12) (arg m c main_arg13) (arg m c main_arg14) (arg m c main_arg15)

theorem ops0_v1 : StableHlo.after hostOps0 W (Proc.devRef .tc main_v1) = srcK (W (Proc.devRef .tc main_arg1)) := by
  after_results
  rfl

theorem ops0_v3 : StableHlo.after hostOps0 W (Proc.devRef .tc main_v3) = dstK (W (Proc.devRef .tc main_arg1)) := by
  after_results
  rfl

theorem ops0_v13 : StableHlo.after hostOps0 W (Proc.devRef .tc main_v13)
    = aggK (W (Proc.devRef .tc main_arg1)) (W (Proc.devRef .tc main_arg0)) := by
  after_results
  rfl

theorem ops0_v14_apply (q : Fin 64) :
    StableHlo.after hostOps0 W (Proc.devRef .tc main_v14) (ix2 (0 : Fin 1) q) = W (Proc.devRef .tc main_arg5) (ix1 q) := by
  after_results
  exact shapeCast_a_1a_apply (W (Proc.devRef .tc main_arg5)) shapeCasts_S64_S1x64 (0 : Fin 1) q

theorem ops1_v25 : StableHlo.after hostOps1 W (Proc.devRef .tc main_v25)
    = aggGen (W (Proc.devRef .tc main_v1)) (W (Proc.devRef .tc main_v3)) (W (Proc.devRef .tc main_v15)) := by
  after_results
  rfl

theorem ops1_v26_apply (q : Fin 64) :
    StableHlo.after hostOps1 W (Proc.devRef .tc main_v26) (ix2 (0 : Fin 1) q) = W (Proc.devRef .tc main_arg8) (ix1 q) := by
  after_results
  exact shapeCast_a_1a_apply (W (Proc.devRef .tc main_arg8)) shapeCasts_S64_S1x64 (0 : Fin 1) q

theorem ops2_v37 : StableHlo.after hostOps2 W (Proc.devRef .tc main_v37)
    = aggGen (W (Proc.devRef .tc main_v1)) (W (Proc.devRef .tc main_v3)) (W (Proc.devRef .tc main_v27)) := by
  after_results
  rfl

theorem ops2_v38_apply (q : Fin 64) :
    StableHlo.after hostOps2 W (Proc.devRef .tc main_v38) (ix2 (0 : Fin 1) q) = W (Proc.devRef .tc main_arg11) (ix1 q) := by
  after_results
  exact shapeCast_a_1a_apply (W (Proc.devRef .tc main_arg11)) shapeCasts_S64_S1x64 (0 : Fin 1) q

end Cert.KernelIdeal.HostOps

end
-- ==== Proof.KiHostOps2.lean ====
import proofs.«424059_j74191265071300_3_alg».proof.Proof.Gen.KernelIdeal.Launch
import proofs.«424059_j74191265071300_3_alg».proof.Proof.Spec
import proofs.«424059_j74191265071300_3_alg».proof.Proof.LibScatterAddVec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

noncomputable section

open scoped BigOperators

namespace Cert.KernelIdeal.HostOps

open Cert.KernelIdeal Cert.KernelIdeal.Gen Idealize.ShloMosaic Idealize.ShloMosaic.ValueIdx Idealize.ShloMosaic.TcCoe

variable (W : Valuation τ sig (Elt Ideal))

theorem broadcastInDim_a_a1_apply {α : Type} {a : ℕ} (v : (⟨1, ![a]⟩ : Shape).Idx → α)
    (h : (⟨1, ![a]⟩ : Shape).BroadcastsInDim ⟨2, ![a, 1]⟩ ![0]) (e : Fin a) (z : Fin 1) :
    broadcastInDim ⟨2, ![a, 1]⟩ ![0] h v (ix2 e z) = v (ix1 e) := by
  refine broadcastInDim_apply _ h v _ (ix1 e) fun ax => ?_
  match ax with
  | ⟨0, _⟩ =>
    show e.val = if a = 1 then 0 else e.val
    split
    · have := e.isLt; omega
    · rfl

theorem ops3_v44_apply (g : Fin 512) :
    StableHlo.after hostOps3 W (Proc.devRef .tc main_v44) (ix2 (0 : Fin 1) g) = Cert.Spec.countAt (W (Proc.devRef .tc main_arg2)) g.val := by
  after_results
  refine (shapeCast_a_1a_apply _ shapeCasts_S512_S1x512 (0 : Fin 1) g).trans ?_
  show Ideal.hostScatterAdd scatter_S512_S50000x1_S50000_n_0_0_1 _ _ _ (ix1 g) = _
  rw [ScatterAddVec.hostScatterAdd_vec_apply scatter_S512_S50000x1_S50000_n_0_0_1 rfl rfl rfl rfl,
    broadcastInDim_scalar_apply, constant_apply, Ideal.ofBits_zero_f32, zero_add]
  unfold Cert.Spec.countAt Cert.Spec.members
  refine Finset.sum_congr (Finset.filter_congr fun e _ => ?_) fun e _ => ?_
  · rw [broadcastInDim_a_a1_apply]
  · rw [broadcastInDim_scalar_apply, constant_apply, Ideal.ofBits_one_f32]

theorem ops3_c9 : StableHlo.after hostOps3 W (Proc.devRef .tc main_c_9) = constantI S_ 32 0#32 := by
  after_results

theorem ops32_c10 : StableHlo.after hostOps3_2 W (Proc.devRef .tc main_c_10) = constantI S_ 32 511#32 := by
  after_results

theorem ops31_v45_apply (hc : W (Proc.devRef .tc main_c_9) = constantI S_ 32 0#32) (n : Fin 50176) (c : Fin 64) :
    StableHlo.after hostOps3_1 W (Proc.devRef .tc main_v45) (ix2 n c)
      = (if hn : n.val < 50000 then (W (Proc.devRef .tc main_v39) : S50000x64.Idx → EReal) (ix2 (⟨n.val, hn⟩ : Fin 50000) c) else 0 : EReal) := by
  after_results
  show pad S50176x64 ![0, 0] ![176, 0] ![0, 0] (W (Proc.devRef .tc main_v39) : S50000x64.Idx → EReal)
    (sitofp (F := Ideal) .f32 (W (Proc.devRef .tc main_c_9) : S_.Idx → BitVec 32)) pads_S50000x64_S50176x64_01760_000 h_S_ (ix2 n c) = _
  by_cases hn : n.val < 50000
  · rw [dif_pos hn]
    refine pad_apply_of_inside _ _ _ _ _ _ _ _ (ix2 (⟨n.val, hn⟩ : Fin 50000) c) fun a => ?_
    match a with
    | ⟨0, _⟩ => show n.val = 0 + n.val * (0 + 1); omega
    | ⟨1, _⟩ => show c.val = 0 + c.val * (0 + 1); omega
  · rw [dif_neg hn]
    refine (pad_apply_of_not_inside _ _ _ _ _ _ _ _ (0 : Fin 2) ?_).trans ?_
    · show ¬(0 ≤ n.val ∧ (n.val - 0) % (0 + 1) = 0 ∧ (n.val - 0) / (0 + 1) < 50000)
      omega
    · rw [hc]
      show ((((0#32 : BitVec 32).toInt : ℤ) : ℝ) : EReal) = 0
      simp

theorem ops33_v46_apply (hc : W (Proc.devRef .tc main_c_10) = constantI S_ 32 511#32) (n : Fin 50176) :
    StableHlo.after hostOps3_3 W (Proc.devRef .tc main_v46) (ix1 n)
      = if hn : n.val < 50000 then (W (Proc.devRef .tc main_arg2) : S50000.Idx → BitVec 32) (ix1 (⟨n.val, hn⟩ : Fin 50000)) else 511#32 := by
  after_results
  show pad S50176 ![0] ![176] ![0] (W (Proc.devRef .tc main_arg2) : S50000.Idx → BitVec 32)
    (W (Proc.devRef .tc main_c_10) : S_.Idx → BitVec 32) pads_S50000_S50176_01760 h_S_ (ix1 n) = _
  by_cases hn : n.val < 50000
  · rw [dif_pos hn]
    refine pad_apply_of_inside _ _ _ _ _ _ _ _ (ix1 (⟨n.val, hn⟩ : Fin 50000)) fun a => ?_
    match a with
    | ⟨0, _⟩ => show n.val = 0 + n.val * (0 + 1); omega
  · rw [dif_neg hn]
    refine (pad_apply_of_not_inside _ _ _ _ _ _ _ _ (0 : Fin 1) ?_).trans ?_
    · show ¬(0 ≤ n.val ∧ (n.val - 0) % (0 + 1) = 0 ∧ (n.val - 0) / (0 + 1) < 50000)
      omega
    · rw [hc]
      rfl

theorem ops34_v47_apply (n : Fin 50176) :
    StableHlo.after hostOps3_4 W (Proc.devRef .tc main_v47) (ix2 (0 : Fin 1) n) = W (Proc.devRef .tc main_v46) (ix1 n) := by
  after_results
  exact shapeCast_a_1a_apply (W (Proc.devRef .tc main_v46)) shapeCasts_S50176_S1x50176 (0 : Fin 1) n

theorem ops34_v48_apply (q : Fin 64) :
    StableHlo.after hostOps3_4 W (Proc.devRef .tc main_v48) (ix2 (0 : Fin 1) q) = W (Proc.devRef .tc main_arg13) (ix1 q) := by
  after_results
  exact shapeCast_a_1a_apply (W (Proc.devRef .tc main_arg13)) shapeCasts_S64_S1x64 (0 : Fin 1) q

theorem ops34_v49_apply (o : Fin 2) :
    StableHlo.after hostOps3_4 W (Proc.devRef .tc main_v49) (ix2 (0 : Fin 1) o) = W (Proc.devRef .tc main_arg15) (ix1 o) := by
  after_results
  exact shapeCast_a_1a_apply (W (Proc.devRef .tc main_arg15)) shapeCasts_S2_S1x2 (0 : Fin 1) o

theorem ops4_v51_apply (g : Fin 500) (o : Fin 2) :
    StableHlo.after hostOps4 W (Proc.devRef .tc main_v51) (ix2 g o) = W (Proc.devRef .tc main_v50) (ix2 (⟨g.val, by omega⟩ : Fin 512) o) := by
  after_results
  exact slice2_axis0_apply 0 (W (Proc.devRef .tc main_v50)) slices_S512x2_S500x2_0_0 g o ⟨g.val, by omega⟩ (Nat.zero_add _).symm

end Cert.KernelIdeal.HostOps

end
-- ==== Proof.KiHost.lean ====
import proofs.«424059_j74191265071300_3_alg».proof.Proof.KiFrame
import proofs.«424059_j74191265071300_3_alg».proof.Proof.KiConvValue
import proofs.«424059_j74191265071300_3_alg».proof.Proof.KiConvValue1
import proofs.«424059_j74191265071300_3_alg».proof.Proof.KiConvValue2
import proofs.«424059_j74191265071300_3_alg».proof.Proof.KiPoolFinal
import proofs.«424059_j74191265071300_3_alg».proof.Proof.KiHostOps
import proofs.«424059_j74191265071300_3_alg».proof.Proof.KiHostOps2
import proofs.«424059_j74191265071300_3_alg».proof.Proof.PoolMath

set_option maxRecDepth 16384

noncomputable section

namespace Cert.KernelIdeal.HostValue

open Cert.KernelIdeal Cert.KernelIdeal.Gen Cert.KernelIdeal.Frame Cert.KernelIdeal.HostOps
open Idealize.ShloMosaic Idealize.ShloMosaic.ValueIdx Idealize.ShloMosaic.TcCoe
open Idealize.SL Idealize.SL.Sem

variable (m : (ℓ : Loc nD τ sig) → Buf (Elt Ideal) ℓ) (c : Dev nD)

def feat1 : Cert.Spec.Nodes.Idx → EReal :=
  Cert.Spec.conv (arg m c main_arg0) (aggK (arg m c main_arg1) (arg m c main_arg0)) (arg m c main_arg4) (arg m c main_arg3) (arg m c main_arg5)
def feat2 : Cert.Spec.Nodes.Idx → EReal :=
  Cert.Spec.conv (feat1 m c) (aggK (arg m c main_arg1) (feat1 m c)) (arg m c main_arg7) (arg m c main_arg6) (arg m c main_arg8)
def feat3 : Cert.Spec.Nodes.Idx → EReal :=
  Cert.Spec.conv (feat2 m c) (aggK (arg m c main_arg1) (feat2 m c)) (arg m c main_arg10) (arg m c main_arg9) (arg m c main_arg11)

theorem W1_arg (b : Ref sig .tc) (h : b ∉ hostOps0_W) : W1 m c (Proc.devRef .tc b) = arg m c b :=
  StableHlo.after_of_writes_sub hostOps0 _ hostOps0_writes h

theorem W1_v1 : W1 m c (Proc.devRef .tc main_v1) = srcK (arg m c main_arg1) := ops0_v1 (W0 m c)
theorem W1_v3 : W1 m c (Proc.devRef .tc main_v3) = dstK (arg m c main_arg1) := ops0_v3 (W0 m c)
theorem W1_v13 : W1 m c (Proc.devRef .tc main_v13) = aggK (arg m c main_arg1) (arg m c main_arg0) := ops0_v13 (W0 m c)
theorem W1_v14 : ConvValue.rowOf (W1 m c (Proc.devRef .tc main_v14)) = arg m c main_arg5 := by
  funext i
  obtain ⟨q, rfl⟩ : ∃ q : Fin 64, i = ix1 q := ⟨i 0, eq_ix1 i⟩
  exact ops0_v14_apply (W0 m c) q

theorem W2_v15 : W2 m c (Proc.devRef .tc main_v15) = feat1 m c := by
  refine (W2_arr m c 5).trans ((ConvValue.conv0_final (VR1 m) c).trans ?_)
  show Cert.Spec.conv (W1 m c (Proc.devRef .tc main_arg0)) (W1 m c (Proc.devRef .tc main_v13)) (W1 m c (Proc.devRef .tc main_arg4))
    (W1 m c (Proc.devRef .tc main_arg3)) (ConvValue.rowOf (W1 m c (Proc.devRef .tc main_v14))) = _
  rw [W1_arg m c main_arg0 (by decide), W1_v13, W1_arg m c main_arg4 (by decide), W1_arg m c main_arg3 (by decide), W1_v14]
  rfl

theorem W2_from1 (b : Ref sig .tc) (h : b ≠ main_v15) : W2 m c (Proc.devRef .tc b) = W1 m c (Proc.devRef .tc b) := W2_keep m c b h
theorem W3_from2 (b : Ref sig .tc) (h : b ∉ hostOps1_W) : W3 m c (Proc.devRef .tc b) = W2 m c (Proc.devRef .tc b) :=
  StableHlo.after_of_writes_sub hostOps1 _ hostOps1_writes h
theorem W5_from4 (b : Ref sig .tc) (h : b ∉ hostOps2_W) : W5 m c (Proc.devRef .tc b) = W4 m c (Proc.devRef .tc b) :=
  StableHlo.after_of_writes_sub hostOps2 _ hostOps2_writes h

theorem W2_arg (b : Ref sig .tc) (h0 : b ∉ hostOps0_W) (hr : b ≠ main_v15) : W2 m c (Proc.devRef .tc b) = arg m c b :=
  (W2_keep m c b hr).trans (W1_arg m c b h0)
theorem W3_arg (b : Ref sig .tc) (h0 : b ∉ hostOps0_W) (hr : b ≠ main_v15) (h1 : b ∉ hostOps1_W) : W3 m c (Proc.devRef .tc b) = arg m c b :=
  (W3_from2 m c b h1).trans (W2_arg m c b h0 hr)

theorem W3_v25 : W3 m c (Proc.devRef .tc main_v25) = aggK (arg m c main_arg1) (feat1 m c) := by
  refine (ops1_v25 (W2 m c)).trans ?_
  rw [W2_from1 m c main_v1 (by decide), W2_from1 m c main_v3 (by decide), W1_v1, W1_v3, W2_v15]
  rfl
theorem W3_v26 : ConvValue.rowOf (W3 m c (Proc.devRef .tc main_v26)) = arg m c main_arg8 := by
  funext i
  obtain ⟨q, rfl⟩ : ∃ q : Fin 64, i = ix1 q := ⟨i 0, eq_ix1 i⟩
  exact (ops1_v26_apply (W2 m c) q).trans (congrFun (W2_arg m c main_arg8 (by decide) (by decide)) _)

theorem W4_v27 : W4 m c (Proc.devRef .tc main_v27) = feat2 m c := by
  refine (W4_arr m c 5).trans ((ConvValue.conv1_final (VR3 m) c).trans ?_)
  show Cert.Spec.conv (W3 m c (Proc.devRef .tc main_v15)) (W3 m c (Proc.devRef .tc main_v25)) (W3 m c (Proc.devRef .tc main_arg7))
    (W3 m c (Proc.devRef .tc main_arg6)) (ConvValue.rowOf (W3 m c (Proc.devRef .tc main_v26))) = _
  rw [W3_from2 m c main_v15 (by decide), W2_v15, W3_v25, W3_arg m c main_arg7 (by decide) (by decide) (by decide),
    W3_arg m c main_arg6 (by decide) (by decide) (by decide), W3_v26]
  rfl

theorem W4_arg (b : Ref sig .tc) (h0 : b ∉ hostOps0_W) (hr : b ≠ main_v15) (h1 : b ∉ hostOps1_W) (hr1 : b ≠ main_v27) :
    W4 m c (Proc.devRef .tc b) = arg m c b :=
  (W4_keep m c b hr1).trans (W3_arg m c b h0 hr h1)
theorem W5_arg (b : Ref sig .tc) (h0 : b ∉ hostOps0_W) (hr : b ≠ main_v15) (h1 : b ∉ hostOps1_W) (hr1 : b ≠ main_v27) (h2 : b ∉ hostOps2_W) :
    W5 m c (Proc.devRef .tc b) = arg m c b :=
  (W5_from4 m c b h2).trans (W4_arg m c b h0 hr h1 hr1)

theorem W4_v1 : W4 m c (Proc.devRef .tc main_v1) = srcK (arg m c main_arg1) :=
  (W4_keep m c main_v1 (by decide)).trans ((W3_from2 m c main_v1 (by decide)).trans ((W2_from1 m c main_v1 (by decide)).trans (W1_v1 m c)))
theorem W4_v3 : W4 m c (Proc.devRef .tc main_v3) = dstK (arg m c main_arg1) :=
  (W4_keep m c main_v3 (by decide)).trans ((W3_from2 m c main_v3 (by decide)).trans ((W2_from1 m c main_v3 (by decide)).trans (W1_v3 m c)))

theorem W5_v37 : W5 m c (Proc.devRef .tc main_v37) = aggK (arg m c main_arg1) (feat2 m c) := by
  refine (ops2_v37 (W4 m c)).trans ?_
  rw [W4_v1, W4_v3, W4_v27]
  rfl
theorem W5_v38 : ConvValue.rowOf (W5 m c (Proc.devRef .tc main_v38)) = arg m c main_arg11 := by
  funext i
  obtain ⟨q, rfl⟩ : ∃ q : Fin 64, i = ix1 q := ⟨i 0, eq_ix1 i⟩
  exact (ops2_v38_apply (W4 m c) q).trans (congrFun (W4_arg m c main_arg11 (by decide) (by decide) (by decide) (by decide)) _)

theorem W6_v39 : W6 m c (Proc.devRef .tc main_v39) = feat3 m c := by
  refine (W6_arr m c 5).trans ((ConvValue.conv2_final (VR5 m) c).trans ?_)
  show Cert.Spec.conv (W5 m c (Proc.devRef .tc main_v27)) (W5 m c (Proc.devRef .tc main_v37)) (W5 m c (Proc.devRef .tc main_arg10))
    (W5 m c (Proc.devRef .tc main_arg9)) (ConvValue.rowOf (W5 m c (Proc.devRef .tc main_v38))) = _
  rw [W5_from4 m c main_v27 (by decide), W4_v27, W5_v37, W5_arg m c main_arg10 (by decide) (by decide) (by decide) (by decide) (by decide),
    W5_arg m c main_arg9 (by decide) (by decide) (by decide) (by decide) (by decide), W5_v38]
  rfl

theorem W6_arg (b : Ref sig .tc) (h0 : b ∉ hostOps0_W) (hr : b ≠ main_v15) (h1 : b ∉ hostOps1_W) (hr1 : b ≠ main_v27) (h2 : b ∉ hostOps2_W)
    (hr2 : b ≠ main_v39) : W6 m c (Proc.devRef .tc b) = arg m c b :=
  (W6_keep m c b hr2).trans (W5_arg m c b h0 hr h1 hr1 h2)
theorem W7_of6 (b : Ref sig .tc) (h : b ∉ hostOps3_W) : W7 m c (Proc.devRef .tc b) = W6 m c (Proc.devRef .tc b) :=
  StableHlo.after_of_writes_sub hostOps3 _ hostOps3_writes h
theorem W8_of7 (b : Ref sig .tc) (h : b ∉ hostOps3_1_W) : W8 m c (Proc.devRef .tc b) = W7 m c (Proc.devRef .tc b) :=
  StableHlo.after_of_writes_sub hostOps3_1 _ hostOps3_1_writes h
theorem W9_of8 (b : Ref sig .tc) (h : b ∉ hostOps3_2_W) : W9 m c (Proc.devRef .tc b) = W8 m c (Proc.devRef .tc b) :=
  StableHlo.after_of_writes_sub hostOps3_2 _ hostOps3_2_writes h
theorem W10_of9 (b : Ref sig .tc) (h : b ∉ hostOps3_3_W) : W10 m c (Proc.devRef .tc b) = W9 m c (Proc.devRef .tc b) :=
  StableHlo.after_of_writes_sub hostOps3_3 _ hostOps3_3_writes h
theorem W11_of10 (b : Ref sig .tc) (h : b ∉ hostOps3_4_W) : W11 m c (Proc.devRef .tc b) = W10 m c (Proc.devRef .tc b) :=
  StableHlo.after_of_writes_sub hostOps3_4 _ hostOps3_4_writes h

theorem Wk_arg (b : Ref sig .tc) (h0 : b ∉ hostOps0_W) (hr : b ≠ main_v15) (h1 : b ∉ hostOps1_W) (hr1 : b ≠ main_v27) (h2 : b ∉ hostOps2_W)
    (hr2 : b ≠ main_v39) (h3 : b ∉ hostOps3_W) (h31 : b ∉ hostOps3_1_W) (h32 : b ∉ hostOps3_2_W) (h33 : b ∉ hostOps3_3_W) (h34 : b ∉ hostOps3_4_W) :
    W7 m c (Proc.devRef .tc b) = arg m c b ∧ W8 m c (Proc.devRef .tc b) = arg m c b ∧ W9 m c (Proc.devRef .tc b) = arg m c b
      ∧ W10 m c (Proc.devRef .tc b) = arg m c b ∧ W11 m c (Proc.devRef .tc b) = arg m c b := by
  have e7 := (W7_of6 m c b h3).trans (W6_arg m c b h0 hr h1 hr1 h2 hr2)
  have e8 := (W8_of7 m c b h31).trans e7
  have e9 := (W9_of8 m c b h32).trans e8
  have e10 := (W10_of9 m c b h33).trans e9
  exact ⟨e7, e8, e9, e10, (W11_of10 m c b h34).trans e10⟩

theorem W11_v44 (g : Fin 512) : W11 m c (Proc.devRef .tc main_v44) (ix2 (0 : Fin 1) g) = Cert.Spec.countAt (arg m c main_arg2) g.val := by
  have e : W11 m c (Proc.devRef .tc main_v44) = W7 m c (Proc.devRef .tc main_v44) :=
    (W11_of10 m c main_v44 (by decide)).trans ((W10_of9 m c main_v44 (by decide)).trans ((W9_of8 m c main_v44 (by decide)).trans (W8_of7 m c main_v44 (by decide))))
  refine (congrFun e _).trans ((ops3_v44_apply (W6 m c) g).trans ?_)
  rw [W6_arg m c main_arg2 (by decide) (by decide) (by decide) (by decide) (by decide) (by decide)]

theorem W11_v45 (n : Fin 50176) (q : Fin 64) : W11 m c (Proc.devRef .tc main_v45) (ix2 n q)
    = if hn : n.val < 50000 then feat3 m c (ix2 (⟨n.val, hn⟩ : Fin 50000) q) else 0 := by
  have e : W11 m c (Proc.devRef .tc main_v45) = W8 m c (Proc.devRef .tc main_v45) :=
    (W11_of10 m c main_v45 (by decide)).trans ((W10_of9 m c main_v45 (by decide)).trans (W9_of8 m c main_v45 (by decide)))
  refine (congrFun e _).trans ((ops31_v45_apply (W7 m c) (ops3_c9 (W6 m c)) n q).trans ?_)
  rw [W7_of6 m c main_v39 (by decide), W6_v39]

theorem W11_v47 (n : Fin 50176) : W11 m c (Proc.devRef .tc main_v47) (ix2 (0 : Fin 1) n)
    = if hn : n.val < 50000 then arg m c main_arg2 (ix1 (⟨n.val, hn⟩ : Fin 50000)) else 511#32 := by
  refine (ops34_v47_apply (W10 m c) n).trans ((ops33_v46_apply (W9 m c) (ops32_c10 (W8 m c)) n).trans ?_)
  rw [(Wk_arg m c main_arg2 (by decide) (by decide) (by decide) (by decide) (by decide) (by decide) (by decide) (by decide) (by decide) (by decide) (by decide)).2.2.1]

theorem W11_v48 (q : Fin 64) : W11 m c (Proc.devRef .tc main_v48) (ix2 (0 : Fin 1) q) = arg m c main_arg13 (ix1 q) := by
  refine (ops34_v48_apply (W10 m c) q).trans ?_
  rw [(Wk_arg m c main_arg13 (by decide) (by decide) (by decide) (by decide) (by decide) (by decide) (by decide) (by decide) (by decide) (by decide) (by decide)).2.2.2.1]
theorem W11_v49 (o : Fin 2) : W11 m c (Proc.devRef .tc main_v49) (ix2 (0 : Fin 1) o) = arg m c main_arg15 (ix1 o) := by
  refine (ops34_v49_apply (W10 m c) o).trans ?_
  rw [(Wk_arg m c main_arg15 (by decide) (by decide) (by decide) (by decide) (by decide) (by decide) (by decide) (by decide) (by decide) (by decide) (by decide)).2.2.2.1]
theorem W11_arg12 : W11 m c (Proc.devRef .tc main_arg12) = arg m c main_arg12 :=
  (Wk_arg m c main_arg12 (by decide) (by decide) (by decide) (by decide) (by decide) (by decide) (by decide) (by decide) (by decide) (by decide) (by decide)).2.2.2.2
theorem W11_arg14 : W11 m c (Proc.devRef .tc main_arg14) = arg m c main_arg14 :=
  (Wk_arg m c main_arg14 (by decide) (by decide) (by decide) (by decide) (by decide) (by decide) (by decide) (by decide) (by decide) (by decide) (by decide)).2.2.2.2

theorem W12_v50 (g : Fin 512) (o : Fin 2) : W12 m c (Proc.devRef .tc main_v50) (ix2 g o)
    = Cert.Spec.outAt (feat3 m c) (arg m c main_arg2) (arg m c main_arg12) (arg m c main_arg13) (arg m c main_arg14) (arg m c main_arg15) g.val o := by
  refine (congrFun (W12_arr m c 7) _).trans ((pool_final (VR11 m) c g o).trans ?_)
  show (∑ k : Fin 64, ((∑ k' : Fin 64, Ideal.div (Cert.PoolMath.accAt (W11 m c (Proc.devRef .tc main_v47)) (W11 m c (Proc.devRef .tc main_v45)) 13 (by norm_num) g k')
      (max (W11 m c (Proc.devRef .tc main_v44) (ix2 (0 : Fin 1) g)) 1) * W11 m c (Proc.devRef .tc main_arg12) (ix2 k' k))
      + W11 m c (Proc.devRef .tc main_v48) (ix2 (0 : Fin 1) k)) * W11 m c (Proc.devRef .tc main_arg14) (ix2 k o))
      + W11 m c (Proc.devRef .tc main_v49) (ix2 (0 : Fin 1) o) = _
  simp only [Cert.PoolMath.accAt_last (arg m c main_arg2) (feat3 m c) _ _ (W11_v47 m c) (W11_v45 m c), W11_v44, W11_arg12, W11_arg14, W11_v48, W11_v49]
  unfold Cert.Spec.outAt Cert.Spec.hidAt Cert.Spec.pooledAt
  rw [W11_arg12 m c, W11_arg14 m c, W11_v44 m c g, W11_v49 m c o]
  refine congrArg₂ (· + ·) (Finset.sum_congr rfl fun k _ => ?_) rfl
  rw [W11_v48 m c k]

theorem result_value : W13 m c (Proc.devRef .tc main_v51) = result m c := by
  funext j
  obtain ⟨g, o, rfl⟩ : ∃ (g : Fin 500) (o : Fin 2), j = ix2 g o := ⟨j 0, j 1, eq_ix2 j⟩
  refine (ops4_v51_apply (W12 m c) g o).trans ((W12_v50 m c ⟨g.val, by omega⟩ o).trans ?_)
  rfl

end Cert.KernelIdeal.HostValue

end
-- ==== Proof.LibScatterAddRows.lean ====
import Idealize.ShloMosaic.PureOps.Ideal
import Idealize.ShloMosaic.PureOps.Contract
import Idealize.ShloMosaic.Lib.ValueIdx

open scoped BigOperators

namespace Idealize.ShloMosaic.ScatterAddRows

open Idealize.ShloMosaic Idealize.ShloMosaic.ValueIdx

abbrev rowAddDims (N K C : Nat)
    (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

section
variable {N K C w : Nat} (wf : ScatterDims.WF ⟨2, ![N, C]⟩ ⟨2, ![K, 1]⟩ ⟨2, ![K, C]⟩ [1] [0] [0] 1)
  (idx : IVec ⟨2, ![K, 1]⟩ w) (e : Fin K) (b : Fin C)

theorem start_row : (rowAddDims N K C wf).start (ix2 e b) idx (0 : Fin 2) = (idx (ix2 e (0 : Fin 1))).toInt := by
  unfold ScatterDims.start
  rw [dif_pos (show (0 : Fin 2) ∈ (rowAddDims N K C wf).scatterDimsToOperandDims from List.mem_singleton.mpr rfl)]
  have hsi : (rowAddDims N K C wf).siIdx (ix2 e b) ⟨List.idxOf (0 : Fin 2) (rowAddDims N K C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

theorem start_col : (rowAddDims N K C wf).start (ix2 e b) idx (1 : Fin 2) = 0 := by
  unfold ScatterDims.start
  rw [dif_neg (show ¬ (1 : Fin 2) ∈ (rowAddDims N K C wf).scatterDimsToOperandDims from (by decide : ¬ (1 : Fin 2) ∈ [(0 : Fin 2)]))]

theorem window_row : (rowAddDims N K C wf).window (ix2 e b) (0 : Fin 2) = 0 := by
  unfold ScatterDims.window
  have h01 : (0 : Fin 2) ∉ [(1 : Fin 2)] := by decide
  rw [dif_neg (show ¬ (0 : Fin 2) ∈ (rowAddDims N K C wf).sKept from h01)]

theorem window_col : (rowAddDims N K C wf).window (ix2 e b) (1 : Fin 2) = b.val := by
  unfold ScatterDims.window
  have h11 : (1 : Fin 2) ∈ [(1 : Fin 2)] := by decide
  rw [dif_pos (show (1 : Fin 2) ∈ (rowAddDims N K C wf).sKept from h11)]
  rfl

theorem resultIdx?_eq_some_iff (i : Fin N) (j : Fin C) :
    (rowAddDims N K C wf).resultIdx? (ix2 e b) idx = some (ix2 i j)
      ↔ (idx (ix2 e (0 : Fin 1))).toInt = (i.val : Int) ∧ b = j := by
  have hi : i.val < N := i.isLt
  have hb : b.val < C := b.isLt
  unfold ScatterDims.resultIdx?
  split
  · rename_i h
    have h0 := h 0
    rw [start_row, window_row] at h0
    rw [Option.some.injEq]
    constructor
    · intro heq
      have e0 := congrArg (fun f : (⟨2, ![N, C]⟩ : Shape).Idx => (f (0 : Fin 2)).val) heq
      have e1 := congrArg (fun f : (⟨2, ![N, C]⟩ : Shape).Idx => (f (1 : Fin 2)).val) heq
      simp only [start_row, start_col, window_row, window_col] at e0 e1
      refine ⟨?_, Fin.ext ?_⟩
      · have : ((idx (ix2 e (0 : Fin 1))).toInt + ((0 : Nat) : Int)).toNat = i.val := e0
        omega
      · have : ((0 : Int) + (b.val : Int)).toNat = j.val := e1
        omega
    · rintro ⟨hrow, rfl⟩
      funext a; refine Fin.ext ?_
      match a with
      | ⟨0, _⟩ =>
        show ((rowAddDims N K C wf).start (ix2 e b) idx (0 : Fin 2) + (rowAddDims N K C wf).window (ix2 e b) (0 : Fin 2)).toNat = i.val
        rw [start_row, window_row]; omega
      | ⟨1, _⟩ =>
        show ((rowAddDims N K C wf).start (ix2 e b) idx (1 : Fin 2) + (rowAddDims N K C wf).window (ix2 e b) (1 : Fin 2)).toNat = b.val
        rw [start_col, window_col]; omega
  · rename_i h
    constructor
    · intro heq; exact absurd heq (by simp)
    · rintro ⟨hrow, rfl⟩
      exfalso; apply h; intro a
      match a with
      | ⟨0, _⟩ =>
        show 0 ≤ (rowAddDims N K C wf).start (ix2 e b) idx (0 : Fin 2) + (rowAddDims N K C wf).window (ix2 e b) (0 : Fin 2)
          ∧ (rowAddDims N K C wf).start (ix2 e b) idx (0 : Fin 2) + (rowAddDims N K C wf).window (ix2 e b) (0 : Fin 2) < (N : Int)
        rw [start_row, window_row]; omega
      | ⟨1, _⟩ =>
        show 0 ≤ (rowAddDims N K C wf).start (ix2 e b) idx (1 : Fin 2) + (rowAddDims N K C wf).window (ix2 e b) (1 : Fin 2)
          ∧ (rowAddDims N K C wf).start (ix2 e b) idx (1 : Fin 2) + (rowAddDims N K C wf).window (ix2 e b) (1 : Fin 2) < (C : Int)
        rw [start_col, window_col]; omega

end

theorem hostScatterAdd_rowAddDims_apply {N K C w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (upd : (⟨2, ![K, C]⟩ : Shape).Idx → EReal)
    (i : Fin N) (j : Fin C) :
    Ideal.hostScatterAdd (rowAddDims N K C wf) x idx upd (ix2 i j)
      = x (ix2 i j) + ∑ e ∈ Finset.univ.filter (fun e : Fin K => (idx (ix2 e (0 : Fin 1))).toInt = (i.val : Int)), upd (ix2 e j) := by
  unfold Ideal.hostScatterAdd
  congr 1
  rw [Finset.sum_filter, sum_idx2, Finset.sum_filter]
  refine Finset.sum_congr rfl fun e _ => ?_
  by_cases ht : (idx (ix2 e (0 : Fin 1))).toInt = (i.val : Int)
  · rw [if_pos ht, Finset.sum_eq_single j]
    · rw [if_pos ((resultIdx?_eq_some_iff wf idx e j i j).mpr ⟨ht, rfl⟩)]
    · intro b _ hbj
      rw [if_neg (fun h => hbj ((resultIdx?_eq_some_iff wf idx e b i j).mp h).2)]
    · intro h; exact absurd (Finset.mem_univ j) h
  · rw [if_neg ht]
    refine Finset.sum_eq_zero fun b _ => ?_
    rw [if_neg (fun h => ht ((resultIdx?_eq_some_iff wf idx e b i j).mp h).1)]

theorem hostScatterAdd_rows_apply {N K C w : Nat} (d : ScatterDims ⟨2, ![N, C]⟩ ⟨2, ![K, 1]⟩ ⟨2, ![K, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![K, 1]⟩ w) (upd : (⟨2, ![K, C]⟩ : Shape).Idx → EReal)
    (i : Fin N) (j : Fin C) :
    Ideal.hostScatterAdd d x idx upd (ix2 i j)
      = x (ix2 i j) + ∑ e ∈ Finset.univ.filter (fun e : Fin K => (idx (ix2 e (0 : Fin 1))).toInt = (i.val : Int)), upd (ix2 e j) := by
  obtain ⟨uw, iw, sd, iv, wf⟩ := d
  simp only at hu hi hs hv
  subst hu hi hs hv
  exact hostScatterAdd_rowAddDims_apply wf x idx upd i j

end Idealize.ShloMosaic.ScatterAddRows
-- ==== Proof.RefValue.lean ====
import proofs.«424059_j74191265071300_3_alg».proof.Proof.Spec
import proofs.«424059_j74191265071300_3_alg».proof.Proof.Gen.ReferenceIdeal.Run
import proofs.«424059_j74191265071300_3_alg».proof.Proof.Gen.ReferenceIdeal.Read
import proofs.«424059_j74191265071300_3_alg».proof.Proof.LibScatterAddRows
import proofs.«424059_j74191265071300_3_alg».proof.Proof.LibScatterAddVec
import Idealize.ShloMosaic.Lib.IdealHost
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Idealize.SL.Sem Idealize.ShloMosaic.TcCoe

def srcOf (ei : IVec S2x800000 32) : IVec S800000 32 :=
  shapeCast _ (extractStridedSlice S1x800000 ![0, 0] ei slices_S2x800000_S1x800000_0_0) shapeCasts_S1x800000_S800000

def aggR (ei : IVec S2x800000 32) (h : FVec Ideal S50000x64 .f32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0
      (shapeCast _ (extractStridedSlice S1x800000 ![1, 0] ei slices_S2x800000_S1x800000_1_0) shapeCasts_S1x800000_S800000))
    (Host.gather gather_S50000x64_S800000x1_S800000x64_1_0_n_n_0_1_164 h
      (broadcastInDim S800000x1 ![0] bcast_S800000_S800000x1_0
        (select (cmpi .slt (srcOf ei) (broadcastInDim S800000 ![] bcast_S_S800000 (constantI S_ 32 0#32)))
          (addi (srcOf ei) (broadcastInDim S800000 ![] bcast_S_S800000 (constantI S_ 32 50000#32)))
          (srcOf ei))))

theorem conv_term (h agg : FVec Ideal S50000x64 .f32) (wroot wrel : FVec Ideal S64x64 .f32) (b : FVec Ideal S64 .f32) :
    maximumf (addf (addf (Host.dotGeneral dot_S50000x64_S64x64_S50000x64_1_0_0_1_n_n none h wroot)
          (Host.dotGeneral dot_S50000x64_S64x64_S50000x64_1_0_0_1_n_n none agg wrel))
        (broadcastInDim S50000x64 ![0, 1] bcast_S1x64_S50000x64_0_1 (broadcastInDim S1x64 ![1] bcast_S64_S1x64_1 b)))
      (broadcastInDim S50000x64 ![] bcast_S_S50000x64 (constant (F := Ideal) S_ .f32 0x00000000#32))
      = Cert.Spec.conv h agg wroot wrel b := by
  funext j
  obtain ⟨n, c, rfl⟩ : ∃ (n : Fin 50000) (c : Fin 64), j = ix2 n c := ⟨j 0, j 1, eq_ix2 j⟩
  show max (Read.val_main_v14 (F := Ideal) h wroot (ix2 n c) + Read.val_main_v14 (F := Ideal) agg wrel (ix2 n c)
      + Read.val_main_v18 (F := Ideal) b (ix2 n c)) (Read.val_main_call0_v0 (F := Ideal) (ix2 n c)) = _
  rw [Read.val_main_v14_apply, Read.val_main_v14_apply, Read.val_main_v18_apply, Read.val_main_v17_apply,
    Read.val_main_call0_v0_apply, Read.val_main_call0_cst_apply, Ideal.ofBits_def, Ideal.ofBits_zero_f32]
  have el : ∀ k : Fin 64, Read.lidx_main_v14 (ix2 n c) k = ix2 n k := fun k =>
    funext fun a => Fin.ext (by match a with | ⟨0, _⟩ => rfl | ⟨1, _⟩ => rfl)
  have er : ∀ k : Fin 64, Read.ridx_main_v14 (ix2 n c) k = ix2 k c := fun k =>
    funext fun a => Fin.ext (by match a with | ⟨0, _⟩ => rfl | ⟨1, _⟩ => rfl)
  have eb : Read.idx_main_v17 (Read.idx_main_v18 (ix2 n c)) = ix1 c :=
    funext fun a => Fin.ext (by match a with | ⟨0, _⟩ => rfl)
  simp only [el, er, eb]
  rfl

section
variable (a0 : FVec Ideal S50000x64 .f32) (a1 : IVec S2x800000 32) (a2 : IVec S50000 32)
  (a3 a4 : FVec Ideal S64x64 .f32) (a5 : FVec Ideal S64 .f32) (a6 a7 : FVec Ideal S64x64 .f32) (a8 : FVec Ideal S64 .f32)
  (a9 a10 : FVec Ideal S64x64 .f32) (a11 : FVec Ideal S64 .f32) (a12 : FVec Ideal S64x64 .f32) (a13 : FVec Ideal S64 .f32)
  (a14 : FVec Ideal S64x2 .f32) (a15 : FVec Ideal S2 .f32)

theorem feats_eq :
    Read.val_main_v54 (F := Ideal) a0 a1 a3 a4 a5 a6 a7 a8 a9 a10 a11
      = Cert.Spec.feats (aggR a1) a0 a3 a4 a5 a6 a7 a8 a9 a10 a11 := by
  have e1 : Read.val_main_v20 (F := Ideal) a0 a1 a3 a4 a5 = Cert.Spec.conv a0 (aggR a1 a0) a4 a3 a5 :=
    conv_term a0 (aggR a1 a0) a4 a3 a5
  have e2 : Read.val_main_v37 (F := Ideal) a0 a1 a3 a4 a5 a6 a7 a8
      = Cert.Spec.conv (Read.val_main_v20 (F := Ideal) a0 a1 a3 a4 a5)
          (aggR a1 (Read.val_main_v20 (F := Ideal) a0 a1 a3 a4 a5)) a7 a6 a8 :=
    conv_term _ (aggR a1 (Read.val_main_v20 (F := Ideal) a0 a1 a3 a4 a5)) a7 a6 a8
  have e3 : Read.val_main_v54 (F := Ideal) a0 a1 a3 a4 a5 a6 a7 a8 a9 a10 a11
      = Cert.Spec.conv (Read.val_main_v37 (F := Ideal) a0 a1 a3 a4 a5 a6 a7 a8)
          (aggR a1 (Read.val_main_v37 (F := Ideal) a0 a1 a3 a4 a5 a6 a7 a8)) a10 a9 a11 :=
    conv_term _ (aggR a1 (Read.val_main_v37 (F := Ideal) a0 a1 a3 a4 a5 a6 a7 a8)) a10 a9 a11
  rw [e3, e2, e1]
  rfl

theorem sums_apply (H : FVec Ideal S50000x64 .f32) (g : Fin 500) (c : Fin 64) :
    Host.scatterAdd (F := Ideal) scatter_S500x64_S50000x1_S50000x64_1_0_0_1 (Read.val_main_v55 (F := Ideal))
      (Read.val_main_v56 (F := Ideal) a2) H (ix2 g c) = Cert.Spec.sumAt H a2 g.val c := by
  unfold Host.scatterAdd
  rw [Ideal.hostScatterAdd_def, ScatterAddRows.hostScatterAdd_rows_apply _ rfl rfl rfl rfl,
    Read.val_main_v55_apply, Read.val_main_cst_7_apply, Ideal.ofBits_def, Ideal.ofBits_zero_f32, zero_add]
  have e : ∀ e : Fin 50000, Read.idx_main_v56 (ix2 e (0 : Fin 1)) = ix1 e := fun e =>
    funext fun a => Fin.ext (by match a with | ⟨0, _⟩ => rfl)
  simp only [Read.val_main_v56_apply, e]
  rfl

theorem counts_apply (g : Fin 500) :
    Read.val_main_v61 (F := Ideal) a2 (ix1 g) = Cert.Spec.countAt a2 g.val := by
  unfold Read.val_main_v61 Host.scatterAdd
  rw [Ideal.hostScatterAdd_def, ScatterAddVec.hostScatterAdd_vec_apply _ rfl rfl rfl rfl,
    Read.val_main_v59_apply, Read.val_main_cst_9_apply, Ideal.ofBits_def, Ideal.ofBits_zero_f32, zero_add]
  have e : ∀ e : Fin 50000, Read.idx_main_v60 (ix2 e (0 : Fin 1)) = ix1 e := fun e =>
    funext fun a => Fin.ext (by match a with | ⟨0, _⟩ => rfl)
  simp only [Read.val_main_v60_apply, Read.val_main_v58_apply, Read.val_main_cst_8_apply, Ideal.ofBits_def,
    Ideal.ofBits_one_f32, e]
  rfl

theorem pooled_apply (g : Fin 500) (k : Fin 64) :
    Read.val_main_v66 (F := Ideal) a0 a1 a2 a3 a4 a5 a6 a7 a8 a9 a10 a11 (ix2 g k)
      = Cert.Spec.pooledAt (Cert.Spec.feats (aggR a1) a0 a3 a4 a5 a6 a7 a8 a9 a10 a11) a2 g.val k := by
  rw [Read.val_main_v66_apply, Ideal.hostDivf_def, Read.val_main_v65_apply, Read.val_main_v64_apply,
    Read.val_main_v63_apply, Ideal.maximumf_def, Read.val_main_v62_apply, Read.val_main_cst_10_apply,
    Ideal.ofBits_def, Ideal.ofBits_one_f32]
  have e : Read.idx_main_v64 (Read.idx_main_v65 (ix2 g k)) = ix1 g :=
    funext fun a => Fin.ext (by match a with | ⟨0, _⟩ => rfl)
  rw [e, counts_apply]
  unfold Read.val_main_v57
  rw [feats_eq, sums_apply]
  rfl

theorem hid_apply (g : Fin 500) (c : Fin 64) :
    Read.val_main_v70 (F := Ideal) a0 a1 a2 a3 a4 a5 a6 a7 a8 a9 a10 a11 a12 a13 (ix2 g c)
      = Cert.Spec.hidAt (Cert.Spec.feats (aggR a1) a0 a3 a4 a5 a6 a7 a8 a9 a10 a11) a2 a12 a13 g.val c := by
  rw [Read.val_main_v70_apply, Ideal.addf_def, Read.val_main_v67_apply, Read.val_main_v69_apply, Read.val_main_v68_apply]
  have el : ∀ k : Fin 64, Read.lidx_main_v67 (ix2 g c) k = ix2 g k := fun k =>
    funext fun a => Fin.ext (by match a with | ⟨0, _⟩ => rfl | ⟨1, _⟩ => rfl)
  have er : ∀ k : Fin 64, Read.ridx_main_v67 (ix2 g c) k = ix2 k c := fun k =>
    funext fun a => Fin.ext (by match a with | ⟨0, _⟩ => rfl | ⟨1, _⟩ => rfl)
  have eb : Read.idx_main_v68 (Read.idx_main_v69 (ix2 g c)) = ix1 c :=
    funext fun a => Fin.ext (by match a with | ⟨0, _⟩ => rfl)
  simp only [el, er, eb, pooled_apply]
  rfl

theorem result_eq :
    Read.val_main_v74 (F := Ideal) a0 a1 a2 a3 a4 a5 a6 a7 a8 a9 a10 a11 a12 a13 a14 a15
      = Cert.Spec.result (aggR a1) a0 a2 a3 a4 a5 a6 a7 a8 a9 a10 a11 a12 a13 a14 a15 := by
  funext i
  obtain ⟨g, o, rfl⟩ : ∃ (g : Fin 500) (o : Fin 2), i = ix2 g o := ⟨i 0, i 1, eq_ix2 i⟩
  rw [Read.val_main_v74_apply, Ideal.addf_def, Read.val_main_v71_apply, Read.val_main_v73_apply, Read.val_main_v72_apply]
  have el : ∀ k : Fin 64, Read.lidx_main_v71 (ix2 g o) k = ix2 g k := fun k =>
    funext fun a => Fin.ext (by match a with | ⟨0, _⟩ => rfl | ⟨1, _⟩ => rfl)
  have er : ∀ k : Fin 64, Read.ridx_main_v71 (ix2 g o) k = ix2 k o := fun k =>
    funext fun a => Fin.ext (by match a with | ⟨0, _⟩ => rfl | ⟨1, _⟩ => rfl)
  have eb : Read.idx_main_v72 (Read.idx_main_v73 (ix2 g o)) = ix1 o :=
    funext fun a => Fin.ext (by match a with | ⟨0, _⟩ => rfl)
  simp only [el, er, eb, hid_apply]
  rfl

theorem res_eq (m : (ℓ : Loc nD τ sig) → Buf (Elt Ideal) ℓ) (c : Dev nD) :
    Cert.ReferenceIdeal.Value.res_main_v74 (F := Ideal) m c
      = Cert.Spec.result (aggR (m ((c.tc : Thread nD τ).loc main_arg1)))
          (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12))
          (m ((c.tc : Thread nD τ).loc main_arg13)) (m ((c.tc : Thread nD τ).loc main_arg14))
          (m ((c.tc : Thread nD τ).loc main_arg15)) :=
  (Read.val_main_v74_eq m c).trans (result_eq _ _ _ _ _ _ _ _ _ _ _ _ _ _ _ _)

end

end Cert.ReferenceIdeal.RefValue

end
-- ==== Proof.lean ====
/- Three GraphConv layers `relu (h · W_root + agg · W_rel + b)`, `agg` the neighbour sum of `h` over the edges, then
   a mean pool over graph ids and a two-layer head. Both programs end at `Cert.Spec.result` of the arguments. -/
import proofs.«424059_j74191265071300_3_alg».proof.Defs
import proofs.«424059_j74191265071300_3_alg».proof.Proof.Gen.Kernel
import proofs.«424059_j74191265071300_3_alg».proof.Proof.Gen.KernelIdeal
import proofs.«424059_j74191265071300_3_alg».proof.Proof.Gen.ReferenceIdeal
import proofs.«424059_j74191265071300_3_alg».proof.Proof.Gen.Pre_finite_inputs
import proofs.«424059_j74191265071300_3_alg».proof.Proof.Same
import proofs.«424059_j74191265071300_3_alg».proof.Proof.KiHost
import proofs.«424059_j74191265071300_3_alg».proof.Proof.RefValue

set_option maxRecDepth 16384

noncomputable section

namespace Cert.Proof

open Idealize.ShloMosaic Idealize.ShloMosaic.TcCoe Idealize.SL.Sem

theorem frame_ki : Cert.frame_KernelIdeal := fun m ρ _ =>
  (θ_run Cert.KernelIdeal.defs _ _).mono (fun _ h c => (h c).2) (Cert.KernelIdeal.Frame.run_result m ρ)

/-- The kernel program's text is the idealized program's, so the frame proved for any float instance is its frame too. -/
theorem frame_k : Cert.frame_Kernel := fun m ρ _ => (Cert.Kernel.run_iff _ _).mpr
  ((θ_run Cert.KernelIdeal.defs _ _).mono (fun _ h c => (h c).2) (Cert.KernelIdeal.Frame.run_result m ρ))

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := fun m ρ m' ρ' _ hagree =>
  ⟨fun c => Cert.KernelIdeal.HostOps.result m c,
    (θ_run Cert.KernelIdeal.defs _ _).mono
      (fun _ h c => ⟨(h c).1.trans (Cert.KernelIdeal.HostValue.result_value m c), (h c).2⟩)
      (Cert.KernelIdeal.Frame.run_result m ρ),
    (θ_run Cert.ReferenceIdeal.defs _ _).mono
      (fun _ h c => ⟨(h c).1.trans (by
        obtain ⟨e0, e1, e2, e3, e4, e5, e6, e7, e8, e9, e10, e11, e12, e13, e14, e15⟩ := hagree c
        rw [Cert.ReferenceIdeal.RefValue.res_eq, e0, e1, e2, e3, e4, e5, e6, e7, e8, e9, e10, e11, e12, e13, e14, e15]
        rfl), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
